-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1024 : Shape := ⟨2, ![10000, 1024]⟩
abbrev S160000 : Shape := ⟨1, ![160000]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S_ : Shape := ⟨0, ![]⟩

class Facts : Prop where
  bcast_S_S10000x1024 : S_.BroadcastsInDim S10000x1024 (![] : Fin 0 → Fin S10000x1024.rank)
  reducesTo_S10000x1024_S_d0_1 : S10000x1024.ReducesTo [0, 1] S_
  h_S_ : 0 < S_.numel
  bcast_S_S160000 : S_.BroadcastsInDim S160000 (![] : Fin 0 → Fin S160000.rank)
  reducesTo_S160000_S_d0 : S160000.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : IVec S160000 32) (main_v48 : IVec S_ 1) (main_v50 : IVec S160000 1) : IVec S_ 1 :=
  let main_c_19 : IVec S_ 1 := constantI S_ 1 1#1
  let main_v51 : IVec S_ 1 := (fun x v => Host.reduce IntOp.andi x v reducesTo_S160000_S_d0 h_S_) main_v50 main_c_19
  let main_v52 : IVec S_ 1 := andi main_v48 main_v51
  let main_c_20 : IVec S_ 32 := constantI S_ 32 0#32
  let main_v53 : IVec S160000 32 := broadcastInDim S160000 ![] bcast_S_S160000 main_c_20
  let main_v54 : IVec S160000 1 := cmpi .sge main_arg11 main_v53
  let main_c_21 : IVec S_ 1 := constantI S_ 1 1#1
  let main_v55 : IVec S_ 1 := (fun x v => Host.reduce IntOp.andi x v reducesTo_S160000_S_d0 h_S_) main_v54 main_c_21
  let main_v56 : IVec S_ 1 := andi main_v52 main_v55
  let main_c_22 : IVec S_ 32 := constantI S_ 32 10000#32
  let main_v57 : IVec S160000 32 := broadcastInDim S160000 ![] bcast_S_S160000 main_c_22
  let main_v58 : IVec S160000 1 := cmpi .slt main_arg11 main_v57
  let main_c_23 : IVec S_ 1 := constantI S_ 1 1#1
  let main_v59 : IVec S_ 1 := (fun x v => Host.reduce IntOp.andi x v reducesTo_S160000_S_d0 h_S_) main_v58 main_c_23
  let main_v60 : IVec S_ 1 := andi main_v56 main_v59
  main_v60

def fn_part2 {F : FTy → Type} [FloatOps F] (main_arg7 : FVec F S256 .f32) (main_arg8 : FVec F S256 .f32) (main_arg9 : FVec F S256 .f32) (main_arg10 : IVec S160000 32) (main_arg11 : IVec S160000 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_c_18 : IVec S_ 32 := constantI S_ 32 0#32
  let main_v49 : IVec S160000 32 := broadcastInDim S160000 ![] bcast_S_S160000 main_c_18
  let main_v50 : IVec S160000 1 := cmpi .sge main_arg10 main_v49
  fn_part3 (F := F) main_arg11 main_v48 main_v50

def fn_part1 {F : FTy → Type} [FloatOps F] (main_arg4 : FVec F S1024 .f32) (main_arg5 : FVec F S1024 .f32) (main_arg6 : FVec F S1024x256 .f32) (main_arg7 : FVec F S256 .f32) (main_arg8 : FVec F S256 .f32) (main_arg9 : FVec F S256 .f32) (main_arg10 : IVec S160000 32) (main_arg11 : IVec S160000 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x256 .f32 := Host.absf main_arg6
  let main_cst_10 : FVec F S_ .f32 := constant S_ .f32 0x7F800000#32
  let main_v30 : FVec F S1024x256 .f32 := broadcastInDim S1024x256 ![] bcast_S_S1024x256 main_cst_10
  let main_v31 : IVec S1024x256 1 := cmpf .olt main_v29 main_v30
  let main_c_11 : IVec S_ 1 := constantI S_ 1 1#1
  let main_v32 : IVec S_ 1 := (fun x v => Host.reduce IntOp.andi x v reducesTo_S1024x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x1024 .f32) (main_arg1 : FVec F S160000 .f32) (main_arg2 : FVec F S1024x1024 .f32) (main_arg3 : FVec F S1024 .f32) (main_arg4 : FVec F S1024 .f32) (main_arg5 : FVec F S1024 .f32) (main_arg6 : FVec F S1024x256 .f32) (main_arg7 : FVec F S256 .f32) (main_arg8 : FVec F S256 .f32) (main_arg9 : FVec F S256 .f32) (main_arg10 : IVec S160000 32) (main_arg11 : IVec S160000 32) : IVec S_ 1 :=
  let main_v0 : FVec F S10000x1024 .f32 := Host.absf main_arg0
  let main_cst : FVec F S_ .f32 := constant S_ .f32 0x7F800000#32
  let main_v1 : FVec F S10000x1024 .f32 := broadcastInDim S10000x1024 ![] bcast_S_S10000x1024 main_cst
  let main_v2 : IVec S10000x1024 1 := cmpf .olt main_v0 main_v1
  let main_c : IVec S_ 1 := constantI S_ 1 1#1
  let main_v3 : IVec S_ 1 := (fun x v => Host.reduce IntOp.andi x v reducesTo_S10000x1024_S_d0_1 h_S_) main_v2 main_c
  let main_v4 : FVec F S160000 .f32 := Host.absf main_arg1
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Kernel.lean ====
abbrev S10000x1024 : Shape := ⟨2, ![10000, 1024]⟩
abbrev S160000 : Shape := ⟨1, ![160000]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S_ : Shape := ⟨0, ![]⟩
abbrev S10112x10112 : Shape := ⟨2, ![10112, 10112]⟩
abbrev S160000x1 : Shape := ⟨2, ![160000, 1]⟩
abbrev S160000x2 : Shape := ⟨2, ![160000, 2]⟩
abbrev S10112x1024 : Shape := ⟨2, ![10112, 1024]⟩
abbrev S1x1024 : Shape := ⟨2, ![1, 1024]⟩
abbrev S1264x1024 : Shape := ⟨2, ![1264, 1024]⟩
abbrev S1264x128 : Shape := ⟨2, ![1264, 128]⟩
abbrev S128x1024 : Shape := ⟨2, ![128, 1024]⟩
abbrev S1x256 : Shape := ⟨2, ![1, 256]⟩
abbrev S10112x256 : Shape := ⟨2, ![10112, 256]⟩
abbrev S1264x256 : Shape := ⟨2, ![1264, 256]⟩
abbrev S128x256 : Shape := ⟨2, ![128, 256]⟩
abbrev S10000x256 : Shape := ⟨2, ![10000, 256]⟩

abbrev nBuf : Space → Nat
  | .hbm => 112
  | .vmem => 26
  | .smem => 0
  | _ => 0

abbrev bufTy : (tb : Table) → Fin (tcTables nBuf tb) → BufTy
  | .hbm, ⟨0, _⟩ => ⟨S10000x1024, .f32⟩
  | .hbm, ⟨1, _⟩ => ⟨S160000, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S160000, .i32⟩
  | .hbm, ⟨11, _⟩ => ⟨S160000, .i32⟩
  | .hbm, ⟨12, _⟩ => ⟨S_, .f32⟩
  | .hbm, ⟨13, _⟩ => ⟨S10112x10112, .f32⟩
  | .hbm, ⟨14, _⟩ => ⟨S_, .i32⟩
  | .hbm, ⟨15, _⟩ => ⟨S160000, .i32⟩
  | .hbm, ⟨16, _⟩ => ⟨S160000, .i1⟩
  | .hbm, ⟨17, _⟩ => ⟨S_, .i32⟩
  | .hbm, ⟨18, _⟩ => ⟨S160000, .i32⟩
  | .hbm, ⟨19, _⟩ => ⟨S160000, .i32⟩
  | .hbm, ⟨20, _⟩ => ⟨S160000, .i32⟩
  | .hbm, ⟨21, _⟩ => ⟨S_, .i32⟩
  | .hbm, ⟨22, _⟩ => ⟨S160000, .i32⟩
  | .hbm, ⟨23, _⟩ => ⟨S160000, .i1⟩
  | .hbm, ⟨24, _⟩ => ⟨S_, .i32⟩
  | .hbm, ⟨25, _⟩ => ⟨S160000, .i32⟩
  | .hbm, ⟨26, _⟩ => ⟨S160000, .i32⟩
  | .hbm, ⟨27, _⟩ => ⟨S160000, .i32⟩
  | .hbm, ⟨28, _⟩ => ⟨S160000x1, .i32⟩
  | .hbm, ⟨29, _⟩ => ⟨S160000x1, .i32⟩
  | .hbm, ⟨30, _⟩ => ⟨S160000x2, .i32⟩
  | .hbm, ⟨31, _⟩ => ⟨S10112x10112, .f32⟩
  | .hbm, ⟨32, _⟩ => ⟨S10112x10112, .bf16⟩
  | .hbm, ⟨33, _⟩ => ⟨S_, .i32⟩
  | .hbm, ⟨34, _⟩ => ⟨S_, .f32⟩
  | .hbm, ⟨35, _⟩ => ⟨S10112x1024, .f32⟩
  | .hbm, ⟨36, _⟩ => ⟨S10112x1024, .bf16⟩
  | .hbm, ⟨37, _⟩ => ⟨S1024x1024, .bf16⟩
  | .hbm, ⟨38, _⟩ => ⟨S1x1024, .f32⟩
  | .hbm, ⟨39, _⟩ => ⟨S10112x1024, .f32⟩
  | .hbm, ⟨40, _⟩ => ⟨S10112x1024, .bf16⟩
  | .hbm, ⟨41, _⟩ => ⟨S10112x1024, .f32⟩
  | .hbm, ⟨42, _⟩ => ⟨S10000x1024, .f32⟩
  | .hbm, ⟨43, _⟩ => ⟨S_, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1x1024, .f32⟩
  | .hbm, ⟨49, _⟩ => ⟨S10000x1024, .f32⟩
  | .hbm, ⟨50, _⟩ => ⟨S10000x1024, .f32⟩
  | .hbm, ⟨51, _⟩ => ⟨S10000x1024, .f32⟩
  | .hbm, ⟨52, _⟩ => ⟨S_, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1x1024, .f32⟩
  | .hbm, ⟨58, _⟩ => ⟨S10000x1024, .f32⟩
  | .hbm, ⟨59, _⟩ => ⟨S10000x1024, .f32⟩
  | .hbm, ⟨60, _⟩ => ⟨S_, .f32⟩
  | .hbm, ⟨61, _⟩ => ⟨S1024, .f32⟩
  | .hbm, ⟨62, _⟩ => ⟨S1024, .f32⟩
  | .hbm, ⟨63, _⟩ => ⟨S1024, .f32⟩
  | .hbm, ⟨64, _⟩ => ⟨S1024, .f32⟩
  | .hbm, ⟨65, _⟩ => ⟨S1x1024, .f32⟩
  | .hbm, ⟨66, _⟩ => ⟨S10000x1024, .f32⟩
  | .hbm, ⟨67, _⟩ => ⟨S10000x1024, .f32⟩
  | .hbm, ⟨68, _⟩ => ⟨S1x1024, .f32⟩
  | .hbm, ⟨69, _⟩ => ⟨S10000x1024, .f32⟩
  | .hbm, ⟨70, _⟩ => ⟨S10000x1024, .f32⟩
  | .hbm, ⟨71, _⟩ => ⟨S_, .f32⟩
  | .hbm, ⟨72, _⟩ => ⟨S10000x1024, .f32⟩
  | .hbm, ⟨73, _⟩ => ⟨S10000x1024, .f32⟩
  | .hbm, ⟨74, _⟩ => ⟨S_, .i32⟩
  | .hbm, ⟨75, _⟩ => ⟨S_, .f32⟩
  | .hbm, ⟨76, _⟩ => ⟨S10112x1024, .f32⟩
  | .hbm, ⟨77, _⟩ => ⟨S10112x1024, .bf16⟩
  | .hbm, ⟨78, _⟩ => ⟨S1024x256, .bf16⟩
  | .hbm, ⟨79, _⟩ => ⟨S1x256, .f32⟩
  | .hbm, ⟨80, _⟩ => ⟨S10112x256, .f32⟩
  | .hbm, ⟨81, _⟩ => ⟨S10112x256, .bf16⟩
  | .hbm, ⟨82, _⟩ => ⟨S10112x256, .f32⟩
  | .hbm, ⟨83, _⟩ => ⟨S10000x256, .f32⟩
  | .hbm, ⟨84, _⟩ => ⟨S_, .f32⟩
  | .hbm, ⟨85, _⟩ => ⟨S256, .f32⟩
  | .hbm, ⟨86, _⟩ => ⟨S_, .f32⟩
  | .hbm, ⟨87, _⟩ => ⟨S256, .f32⟩
  | .hbm, ⟨88, _⟩ => ⟨S256, .f32⟩
  | .hbm, ⟨89, _⟩ => ⟨S1x256, .f32⟩
  | .hbm, ⟨90, _⟩ => ⟨S10000x256, .f32⟩
  | .hbm, ⟨91, _⟩ => ⟨S10000x256, .f32⟩
  | .hbm, ⟨92, _⟩ => ⟨S10000x256, .f32⟩
  | .hbm, ⟨93, _⟩ => ⟨S_, .f32⟩
  | .hbm, ⟨94, _⟩ => ⟨S256, .f32⟩
  | .hbm, ⟨95, _⟩ => ⟨S_, .f32⟩
  | .hbm, ⟨96, _⟩ => ⟨S256, .f32⟩
  | .hbm, ⟨97, _⟩ => ⟨S256, .f32⟩
  | .hbm, ⟨98, _⟩ => ⟨S1x256, .f32⟩
  | .hbm, ⟨99, _⟩ => ⟨S10000x256, .f32⟩
  | .hbm, ⟨100, _⟩ => ⟨S10000x256, .f32⟩
  | .hbm, ⟨101, _⟩ => ⟨S_, .f32⟩
  | .hbm, ⟨102, _⟩ => ⟨S256, .f32⟩
  | .hbm, ⟨103, _⟩ => ⟨S256, .f32⟩
  | .hbm, ⟨104, _⟩ => ⟨S256, .f32⟩
  | .hbm, ⟨105, _⟩ => ⟨S256, .f32⟩
  | .hbm, ⟨106, _⟩ => ⟨S1x256, .f32⟩
  | .hbm, ⟨107, _⟩ => ⟨S10000x256, .f32⟩
  | .hbm, ⟨108, _⟩ => ⟨S10000x256, .f32⟩
  | .hbm, ⟨109, _⟩ => ⟨S1x256, .f32⟩
  | .hbm, ⟨110, _⟩ => ⟨S10000x256, .f32⟩
  | .hbm, ⟨111, _⟩ => ⟨S10000x256, .f32⟩
  | .local _ .vmem, ⟨0, _⟩ => ⟨S1264x1024, .bf16⟩
  | .local _ .vmem, ⟨1, _⟩ => ⟨S1264x1024, .bf16⟩
  | .local _ .vmem, ⟨2, _⟩ => ⟨S1024x1024, .bf16⟩
  | .local _ .vmem, ⟨3, _⟩ => ⟨S1x1024, .f32⟩
  | .local _ .vmem, ⟨4, _⟩ => ⟨S1264x1024, .f32⟩
  | .local _ .vmem, ⟨5, _⟩ => ⟨S1264x1024, .f32⟩
  | .local _ .vmem, ⟨6, _⟩ => ⟨S1264x128, .bf16⟩
  | .local _ .vmem, ⟨7, _⟩ => ⟨S1264x128, .bf16⟩
  | .local _ .vmem, ⟨8, _⟩ => ⟨S128x1024, .bf16⟩
  | .local _ .vmem, ⟨9, _⟩ => ⟨S128x1024, .bf16⟩
  | .local _ .vmem, ⟨10, _⟩ => ⟨S1264x1024, .f32⟩
  | .local _ .vmem, ⟨11, _⟩ => ⟨S1264x1024, .f32⟩
  | .local _ .vmem, ⟨12, _⟩ => ⟨S1264x1024, .f32⟩
  | .local _ .vmem, ⟨13, _⟩ => ⟨S1264x1024, .bf16⟩
  | .local _ .vmem, ⟨14, _⟩ => ⟨S1264x1024, .bf16⟩
  | .local _ .vmem, ⟨15, _⟩ => ⟨S1024x256, .bf16⟩
  | .local _ .vmem, ⟨16, _⟩ => ⟨S1x256, .f32⟩
  | .local _ .vmem, ⟨17, _⟩ => ⟨S1264x256, .f32⟩
  | .local _ .vmem, ⟨18, _⟩ => ⟨S1264x256, .f32⟩
  | .local _ .vmem, ⟨19, _⟩ => ⟨S1264x128, .bf16⟩
  | .local _ .vmem, ⟨20, _⟩ => ⟨S1264x128, .bf16⟩
  | .local _ .vmem, ⟨21, _⟩ => ⟨S128x256, .bf16⟩
  | .local _ .vmem, ⟨22, _⟩ => ⟨S128x256, .bf16⟩
  | .local _ .vmem, ⟨23, _⟩ => ⟨S1264x256, .f32⟩
  | .local _ .vmem, ⟨24, _⟩ => ⟨S1264x256, .f32⟩
  | .local _ .vmem, ⟨25, _⟩ => ⟨S1264x256, .f32⟩
  | _, _ => ⟨S10000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_call0_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_c_9 : Ref sig .tc := ⟨.hbm, 74, rfl⟩
abbrev main_call2_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1264x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1264x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 79], ![false, false]⟩

def k1_cond2 (i : grid1.Coords) : BitVec 1 :=
  let arg1 : BitVec 32 := BitVec.ofNat 32 (i 1).val
  let c78_i32 : BitVec 32 := 78#32
  let v13 : BitVec 1 := Scalar.cmpi .eq arg1 c78_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1264x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1264x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1264x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1264x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 79], ![false, false]⟩

def k3_cond2 (i : grid3.Coords) : BitVec 1 :=
  let arg1 : BitVec 32 := BitVec.ofNat 32 (i 1).val
  let c78_i32 : BitVec 32 := 78#32
  let v13 : BitVec 1 := Scalar.cmpi .eq arg1 c78_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1264x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S128x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1264x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  bcast_S_S10112x10112 : S_.BroadcastsInDim S10112x10112 (![] : Fin 0 → Fin S10112x10112.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x1_S160000x1_S160000x2_d1 : Shape.Concatenates [S160000x1, S160000x1] S160000x2 1
  bitsLt_bf16_f32 : FTy.bits .bf16 < FTy.bits .f32
  pads_S10000x1024_S10112x1024_01120_000 : S10000x1024.Pads (![0, 0] : Fin 2 → Nat) ![112, 0] ![0, 0] S10112x1024
  h_S_ : 0 < S_.numel
  shapeCasts_S1024_S1x1024 : S1024.ShapeCasts S1x1024
  inb_S1264x1024_S1264x1024_0_0 : ∀ a, (![0, 0] : Fin 2 → Nat) a + S1264x1024.size a ≤ S1264x1024.size a
  h_S1264x1024 : 0 < S1264x1024.numel
  shapeCasts_S1264x1024_S1264x1024 : S1264x1024.ShapeCasts S1264x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1264x1024 : S1x1024.Broadcasts S1264x1024
  inb_S1264x128_S1264x128_0_0 : ∀ a, (![0, 0] : Fin 2 → Nat) a + S1264x128.size a ≤ S1264x128.size a
  h_S1264x128 : 0 < S1264x128.numel
  shapeCasts_S1264x128_S1264x128 : S1264x128.ShapeCasts S1264x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  slices_S10112x1024_S10000x1024_0_0 : S10112x1024.Slices ![0, 0] S10000x1024
  reducesTo_S10000x1024_S1024_d0 : S10000x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S_S10000x1024 : S_.BroadcastsInDim S10000x1024 (![] : Fin 0 → Fin S10000x1024.rank)
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1264x256 : S1x256.Broadcasts S1264x256
  inb_S1264x256_S1264x256_0_0 : ∀ a, (![0, 0] : Fin 2 → Nat) a + S1264x256.size a ≤ S1264x256.size a
  h_S1264x256 : 0 < S1264x256.numel
  shapeCasts_S1264x256_S1264x256 : S1264x256.ShapeCasts S1264x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S10112x256_S10000x256_0_0 : S10112x256.Slices ![0, 0] S10000x256
  reducesTo_S10000x256_S256_d0 : S10000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  scatter_S10112x10112_S160000x2_S160000_n_01_01_1_wf : ScatterDims.WF S10112x10112 S160000x2 S160000 [] [0, 1] [0, 1] 1
  dot_S1264x1024_S1024x1024_S1264x1024_1_0_0_1_n_n_wf : DotDims.WF S1264x1024 S1024x1024 S1264x1024 [1] [0] [0] [1] [] []
  dot_S1264x128_S128x1024_S1264x1024_1_0_0_1_n_n_wf : DotDims.WF S1264x128 S128x1024 S1264x1024 [1] [0] [0] [1] [] []
  dot_S1264x1024_S1024x256_S1264x256_1_0_0_1_n_n_wf : DotDims.WF S1264x1024 S1024x256 S1264x256 [1] [0] [0] [1] [] []
  dot_S1264x128_S128x256_S1264x256_1_0_0_1_n_n_wf : DotDims.WF S1264x128 S128x256 S1264x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1264x1024.size a ≤ S10112x1024.size a
  hwx0_0 : ∀ i : grid0.Coords, EltTy.bits .bf16 = 32 ∨ (Rect.block (s := S10112x1024) S1264x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1264x1024.size a ≤ S10112x1024.size a
  hwx0_3 : ∀ i : grid0.Coords, EltTy.bits .f32 = 32 ∨ (Rect.block (s := S10112x1024) S1264x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1264x128.size a ≤ S10112x10112.size a
  hwx1_0 : ∀ i : grid1.Coords, EltTy.bits .bf16 = 32 ∨ (Rect.block (s := S10112x10112) S1264x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S10112x1024.size a
  hwx1_1 : ∀ i : grid1.Coords, EltTy.bits .bf16 = 32 ∨ (Rect.block (s := S10112x1024) S128x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1264x1024.size a ≤ S10112x1024.size a
  hwx1_2 : ∀ i : grid1.Coords, EltTy.bits .f32 = 32 ∨ (Rect.block (s := S10112x1024) S1264x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1264x1024.size a ≤ S10112x1024.size a
  hwx2_0 : ∀ i : grid2.Coords, EltTy.bits .bf16 = 32 ∨ (Rect.block (s := S10112x1024) S1264x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .bf16 = 32 ∨ (Rect.block (s := S1024x256) S1024x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1264x256.size a ≤ S10112x256.size a
  hwx2_3 : ∀ i : grid2.Coords, EltTy.bits .f32 = 32 ∨ (Rect.block (s := S10112x256) S1264x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1264x128.size a ≤ S10112x10112.size a
  hwx3_0 : ∀ i : grid3.Coords, EltTy.bits .bf16 = 32 ∨ (Rect.block (s := S10112x10112) S1264x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S10112x256.size a
  hwx3_1 : ∀ i : grid3.Coords, EltTy.bits .bf16 = 32 ∨ (Rect.block (s := S10112x256) S128x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1264x256.size a ≤ S10112x256.size a
  hwx3_2 : ∀ i : grid3.Coords, EltTy.bits .f32 = 32 ∨ (Rect.block (s := S10112x256) S1264x256.size (cc3_transform_2 i) (hinb3_2 i)).WholeWords (EltTy.packing .f32)

variable [Facts₀]

def scatter_S10112x10112_S160000x2_S160000_n_01_01_1 : ScatterDims S10112x10112 S160000x2 S160000 where
  updateWindowDims := []
  insertedWindowDims := [0, 1]
  scatterDimsToOperandDims := [0, 1]
  indexVectorDim := 1
  wf := scatter_S10112x10112_S160000x2_S160000_n_01_01_1_wf
def dot_S1264x1024_S1024x1024_S1264x1024_1_0_0_1_n_n : DotDims S1264x1024 S1024x1024 S1264x1024 where
  lhsContracting := [1]
  rhsContracting := [0]
  lhsNonContracting := [0]
  rhsNonContracting := [1]
  lhsBatch := []
  rhsBatch := []
  wf := dot_S1264x1024_S1024x1024_S1264x1024_1_0_0_1_n_n_wf
def dot_S1264x128_S128x1024_S1264x1024_1_0_0_1_n_n : DotDims S1264x128 S128x1024 S1264x1024 where
  lhsContracting := [1]
  rhsContracting := [0]
  lhsNonContracting := [0]
  rhsNonContracting := [1]
  lhsBatch := []
  rhsBatch := []
  wf := dot_S1264x128_S128x1024_S1264x1024_1_0_0_1_n_n_wf
def dot_S1264x1024_S1024x256_S1264x256_1_0_0_1_n_n : DotDims S1264x1024 S1024x256 S1264x256 where
  lhsContracting := [1]
  rhsContracting := [0]
  lhsNonContracting := [0]
  rhsNonContracting := [1]
  lhsBatch := []
  rhsBatch := []
  wf := dot_S1264x1024_S1024x256_S1264x256_1_0_0_1_n_n_wf
def dot_S1264x128_S128x256_S1264x256_1_0_0_1_n_n : DotDims S1264x128 S128x256 S1264x256 where
  lhsContracting := [1]
  rhsContracting := [0]
  lhsNonContracting := [0]
  rhsNonContracting := [1]
  lhsBatch := []
  rhsBatch := []
  wf := dot_S1264x128_S128x256_S1264x256_1_0_0_1_n_n_wf

abbrev win0_0 : Pipeline.Window sig grid0 :=
  Pipeline.Window.ofSpec (Memref.whole main_v17) S1264x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1264x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S1264x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1264x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v49) S1264x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1024x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1264x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v15) S1264x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S128x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1264x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S10000x1024 : Shape := ⟨2, ![10000, 1024]⟩
abbrev S160000 : Shape := ⟨1, ![160000]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S1x1024 : Shape := ⟨2, ![1, 1024]⟩
abbrev S160000x1 : Shape := ⟨2, ![160000, 1]⟩
abbrev S_ : Shape := ⟨0, ![]⟩
abbrev S160000x1024 : Shape := ⟨2, ![160000, 1024]⟩
abbrev S10000x256 : Shape := ⟨2, ![10000, 256]⟩
abbrev S1x256 : Shape := ⟨2, ![1, 256]⟩
abbrev S160000x256 : Shape := ⟨2, ![160000, 256]⟩

abbrev nBuf : Space → Nat
  | .hbm => 111
  | .vmem => 0
  | .smem => 0
  | _ => 0

abbrev bufTy : (tb : Table) → Fin (tcTables nBuf tb) → BufTy
  | .hbm, ⟨0, _⟩ => ⟨S10000x1024, .f32⟩
  | .hbm, ⟨1, _⟩ => ⟨S160000, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S160000, .i32⟩
  | .hbm, ⟨11, _⟩ => ⟨S160000, .i32⟩
  | .hbm, ⟨12, _⟩ => ⟨S10000x1024, .f32⟩
  | .hbm, ⟨13, _⟩ => ⟨S1x1024, .f32⟩
  | .hbm, ⟨14, _⟩ => ⟨S10000x1024, .f32⟩
  | .hbm, ⟨15, _⟩ => ⟨S10000x1024, .f32⟩
  | .hbm, ⟨16, _⟩ => ⟨S160000x1, .f32⟩
  | .hbm, ⟨17, _⟩ => ⟨S_, .i32⟩
  | .hbm, ⟨18, _⟩ => ⟨S160000, .i32⟩
  | .hbm, ⟨19, _⟩ => ⟨S160000, .i1⟩
  | .hbm, ⟨20, _⟩ => ⟨S_, .i32⟩
  | .hbm, ⟨21, _⟩ => ⟨S160000, .i32⟩
  | .hbm, ⟨22, _⟩ => ⟨S160000, .i32⟩
  | .hbm, ⟨23, _⟩ => ⟨S160000, .i32⟩
  | .hbm, ⟨24, _⟩ => ⟨S160000x1, .i32⟩
  | .hbm, ⟨25, _⟩ => ⟨S160000x1024, .f32⟩
  | .hbm, ⟨26, _⟩ => ⟨S160000x1024, .f32⟩
  | .hbm, ⟨27, _⟩ => ⟨S160000x1024, .f32⟩
  | .hbm, ⟨28, _⟩ => ⟨S_, .f32⟩
  | .hbm, ⟨29, _⟩ => ⟨S10000x1024, .f32⟩
  | .hbm, ⟨30, _⟩ => ⟨S160000x1, .i32⟩
  | .hbm, ⟨31, _⟩ => ⟨S10000x1024, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S10000x1024, .f32⟩
  | .hbm, ⟨39, _⟩ => ⟨S10000x1024, .f32⟩
  | .hbm, ⟨40, _⟩ => ⟨S10000x1024, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1x1024, .f32⟩
  | .hbm, ⟨47, _⟩ => ⟨S10000x1024, .f32⟩
  | .hbm, ⟨48, _⟩ => ⟨S10000x1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S1x1024, .f32⟩
  | .hbm, ⟨55, _⟩ => ⟨S10000x1024, .f32⟩
  | .hbm, ⟨56, _⟩ => ⟨S10000x1024, .f32⟩
  | .hbm, ⟨57, _⟩ => ⟨S1x1024, .f32⟩
  | .hbm, ⟨58, _⟩ => ⟨S10000x1024, .f32⟩
  | .hbm, ⟨59, _⟩ => ⟨S10000x1024, .f32⟩
  | .hbm, ⟨60, _⟩ => ⟨S_, .f32⟩
  | .hbm, ⟨61, _⟩ => ⟨S10000x1024, .f32⟩
  | .hbm, ⟨62, _⟩ => ⟨S10000x1024, .f32⟩
  | .hbm, ⟨63, _⟩ => ⟨S10000x256, .f32⟩
  | .hbm, ⟨64, _⟩ => ⟨S1x256, .f32⟩
  | .hbm, ⟨65, _⟩ => ⟨S10000x256, .f32⟩
  | .hbm, ⟨66, _⟩ => ⟨S10000x256, .f32⟩
  | .hbm, ⟨67, _⟩ => ⟨S160000x1, .f32⟩
  | .hbm, ⟨68, _⟩ => ⟨S_, .i32⟩
  | .hbm, ⟨69, _⟩ => ⟨S160000, .i32⟩
  | .hbm, ⟨70, _⟩ => ⟨S160000, .i1⟩
  | .hbm, ⟨71, _⟩ => ⟨S_, .i32⟩
  | .hbm, ⟨72, _⟩ => ⟨S160000, .i32⟩
  | .hbm, ⟨73, _⟩ => ⟨S160000, .i32⟩
  | .hbm, ⟨74, _⟩ => ⟨S160000, .i32⟩
  | .hbm, ⟨75, _⟩ => ⟨S160000x1, .i32⟩
  | .hbm, ⟨76, _⟩ => ⟨S160000x256, .f32⟩
  | .hbm, ⟨77, _⟩ => ⟨S160000x256, .f32⟩
  | .hbm, ⟨78, _⟩ => ⟨S160000x256, .f32⟩
  | .hbm, ⟨79, _⟩ => ⟨S_, .f32⟩
  | .hbm, ⟨80, _⟩ => ⟨S10000x256, .f32⟩
  | .hbm, ⟨81, _⟩ => ⟨S160000x1, .i32⟩
  | .hbm, ⟨82, _⟩ => ⟨S10000x256, .f32⟩
  | .hbm, ⟨83, _⟩ => ⟨S_, .f32⟩
  | .hbm, ⟨84, _⟩ => ⟨S256, .f32⟩
  | .hbm, ⟨85, _⟩ => ⟨S_, .f32⟩
  | .hbm, ⟨86, _⟩ => ⟨S256, .f32⟩
  | .hbm, ⟨87, _⟩ => ⟨S256, .f32⟩
  | .hbm, ⟨88, _⟩ => ⟨S1x256, .f32⟩
  | .hbm, ⟨89, _⟩ => ⟨S10000x256, .f32⟩
  | .hbm, ⟨90, _⟩ => ⟨S10000x256, .f32⟩
  | .hbm, ⟨91, _⟩ => ⟨S10000x256, .f32⟩
  | .hbm, ⟨92, _⟩ => ⟨S_, .f32⟩
  | .hbm, ⟨93, _⟩ => ⟨S256, .f32⟩
  | .hbm, ⟨94, _⟩ => ⟨S_, .f32⟩
  | .hbm, ⟨95, _⟩ => ⟨S256, .f32⟩
  | .hbm, ⟨96, _⟩ => ⟨S256, .f32⟩
  | .hbm, ⟨97, _⟩ => ⟨S1x256, .f32⟩
  | .hbm, ⟨98, _⟩ => ⟨S10000x256, .f32⟩
  | .hbm, ⟨99, _⟩ => ⟨S10000x256, .f32⟩
  | .hbm, ⟨100, _⟩ => ⟨S_, .f32⟩
  | .hbm, ⟨101, _⟩ => ⟨S256, .f32⟩
  | .hbm, ⟨102, _⟩ => ⟨S256, .f32⟩
  | .hbm, ⟨103, _⟩ => ⟨S256, .f32⟩
  | .hbm, ⟨104, _⟩ => ⟨S256, .f32⟩
  | .hbm, ⟨105, _⟩ => ⟨S1x256, .f32⟩
  | .hbm, ⟨106, _⟩ => ⟨S10000x256, .f32⟩
  | .hbm, ⟨107, _⟩ => ⟨S10000x256, .f32⟩
  | .hbm, ⟨108, _⟩ => ⟨S1x256, .f32⟩
  | .hbm, ⟨109, _⟩ => ⟨S10000x256, .f32⟩
  | .hbm, ⟨110, _⟩ => ⟨S10000x256, .f32⟩
  | _, _ => ⟨S10000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call0_cst : Ref sig .tc := ⟨.hbm, 60, rfl⟩
abbrev main_call0_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_6 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x1024_0_1 : S160000x1.BroadcastsInDim S160000x1024 (![0, 1] : Fin 2 → Fin S160000x1024.rank)
  bcast_S_S10000x1024 : S_.BroadcastsInDim S10000x1024 (![] : Fin 0 → Fin S10000x1024.rank)
  reducesTo_S10000x1024_S1024_d0 : S10000x1024.ReducesTo [0] S1024
  h_S_ : 0 < S_.numel
  bcast_S_S1024 : S_.BroadcastsInDim S1024 (![] : Fin 0 → Fin S1024.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S160000x1_S160000x256_0_1 : S160000x1.BroadcastsInDim S160000x256 (![0, 1] : Fin 2 → Fin S160000x256.rank)
  bcast_S_S10000x256 : S_.BroadcastsInDim S10000x256 (![] : Fin 0 → Fin S10000x256.rank)
  reducesTo_S10000x256_S256_d0 : S10000x256.ReducesTo [0] S256
  bcast_S_S256 : S_.BroadcastsInDim S256 (![] : Fin 0 → Fin S256.rank)
  dot_S10000x1024_S1024x1024_S10000x1024_1_0_0_1_n_n_wf : DotDims.WF S10000x1024 S1024x1024 S10000x1024 [1] [0] [0] [1] [] []
  gather_S10000x1024_S160000x1_S160000x1024_1_0_n_n_0_1_11024_wf : GatherDims.WF S10000x1024 S160000x1 S160000x1024 [1] [0] [] [0] [] 1 ![1, 1024]
  scatter_S10000x1024_S160000x1_S160000x1024_1_0_0_1_wf : ScatterDims.WF S10000x1024 S160000x1 S160000x1024 [1] [0] [0] 1
  dot_S10000x1024_S1024x256_S10000x256_1_0_0_1_n_n_wf : DotDims.WF S10000x1024 S1024x256 S10000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1

variable [Facts₀]

def dot_S10000x1024_S1024x1024_S10000x1024_1_0_0_1_n_n : DotDims S10000x1024 S1024x1024 S10000x1024 where
  lhsContracting := [1]
  rhsContracting := [0]
  lhsNonContracting := [0]
  rhsNonContracting := [1]
  lhsBatch := []
  rhsBatch := []
  wf := dot_S10000x1024_S1024x1024_S10000x1024_1_0_0_1_n_n_wf
def gather_S10000x1024_S160000x1_S160000x1024_1_0_n_n_0_1_11024 : GatherDims S10000x1024 S160000x1 S160000x1024 where
  offsetDims := [1]
  collapsedSliceDims := [0]
  operandBatchingDims := []
  startIndicesBatchingDims := []
  startIndexMap := [0]
  indexVectorDim := 1
  sliceSizes := ![1, 1024]
  wf := gather_S10000x1024_S160000x1_S160000x1024_1_0_n_n_0_1_11024_wf
def scatter_S10000x1024_S160000x1_S160000x1024_1_0_0_1 : ScatterDims S10000x1024 S160000x1 S160000x1024 where
  updateWindowDims := [1]
  insertedWindowDims := [0]
  scatterDimsToOperandDims := [0]
  indexVectorDim := 1
  wf := scatter_S10000x1024_S160000x1_S160000x1024_1_0_0_1_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf

class Facts : Prop extends Facts₀ where

variable [Facts]
-- ==== Proof.K.R0.lean ====
import proofs.«426427_j36155034698037_1_alg».proof.Proof.Gen.Kernel.Launch
import proofs.«426427_j36155034698037_1_alg».proof.Proof.Gen.Kernel.Skeleton
import proofs.«426427_j36155034698037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic Idealize.SL.RA
open Idealize.ShloMosaic.Pipeline (Dat BodyObligation)

variable {F : FTy → Type} [FloatOps F]

variable (V : (c : Dev nD) → (b : Ref sig .tc) → Buf (Elt F) ((c : Thread nD τ).loc b))

/-- Window `w`'s block at point `t` of its array at the entry contents `V`. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1264x1024 := Rect.unit (s := S1264x1024) ![0, 0] S1264x1024.size inb_S1264x1024_S1264x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S1264x1024 := Rect.unit (s := S1264x1024) ![0, 0] S1264x1024.size inb_S1264x1024_S1264x1024_0_0

/-- The output block from the three input blocks: one store of `x · W + bias` over the whole of it. -/
def out0_3 (x0 : Vec F S1264x1024 .bf16) (x1 : Vec F S1024x1024 .bf16) (x2 : Vec F S1x1024 .f32) : Vec F S1264x1024 .f32 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

/-- On an input window `before` is `after`: both are the window's block of the entry array. -/
theorem before0 (c : Dev nD) (w : Fin cfg0.W) (hw : (cfg0.win w).isOut = false) :
    ∀ t d, (dat0 V c).before w t d = (dat0 V c).after w t := by
  fin_cases w <;> first
    | exact absurd hw (by decide)
    | exact (dat0 V c).before_in_eq_fetched _ rfl (fun _ => rfl) (fun _ _ _ => rfl) (fun _ => rfl)

/-- The body reads the three input blocks and stores `out0_3` of them over the whole output block. -/
theorem body_obligation0 (c : Dev nD) : BodyObligation (dat0 (F := F) V c) (defs₀ (F := F)) Variants.none () Set.univ := fun t => by
  rw [bigSep_W0, bigSep_W0]
  sl_whnfR [defs₀, Defs.onTc]
  simp only [cc0__matmul_bias_kernel_eq_skeleton]; unfold cc0__matmul_bias_kernel_skel owns
  rewrite [show (dat0 V c).Φ t.succ = (dat0 V c).Φ t.castSucc from rfl,
    show (dat0 V c).owesAt () t.succ = (dat0 V c).owesAt () t.castSucc from rfl]
  iintro ⟨HΦ, Ho, ⟨%d0, %f0, %h0, H0⟩, ⟨%d1, %f1, %h1, H1⟩, ⟨%d2, %f2, %h2, H2⟩, ⟨%d3, %f3, -, H3⟩⟩
  have e0 : _ = iblk0 V c 0 t := h0.trans (before0 V c 0 rfl t d0)
  have e1 : _ = iblk0 V c 1 t := h1.trans (before0 V c 1 rfl t d1)
  have e2 : _ = iblk0 V c 2 t := h2.trans (before0 V c 2 rfl t d2)
  sl_exec
  sl_step
  iframe HΦ Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists _; isplitr
  swap; · iexact H3
  ipureintro
  rw [after0_3, ← e0, ← e1, ← e2]
  exact View.read_writes_eq_canon _ _ _ (View.cover_of_tiled _ r0_3.size rfl)

end Cert.Kernel.Hand

end
-- ==== Proof.K.R1Runs.lean ====
import proofs.«426427_j36155034698037_1_alg».proof.Proof.Gen.Kernel.Launch
import proofs.«426427_j36155034698037_1_alg».proof.Proof.Gen.Kernel.Skeleton
import proofs.«426427_j36155034698037_1_alg».proof.Proof.Gen.Kernel.Points
import Idealize.ShloMosaic.Lib.Pipeline.FrameBody
import Idealize.ShloMosaic.Lib.Ring
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 79 = 0 := by decide +kernel

abbrev cond1_1 (i : grid1.Coords) : Prop := k1_cond2 i = 1#1
theorem hcond1_1 : ∀ t : Fin cfg1.N, cond1_1 (grid1.coords t) ↔ t.val % 79 = 78 := by decide +kernel

theorem liveAt1_2 : ∀ t : Fin cfg1.N, cond1_1 (grid1.coords t) → cfg1.idle 2 (grid1.coords t) = false := by decide +kernel
theorem idleAt1_2 : ∀ t : Fin cfg1.N, ¬cond1_1 (grid1.coords t) → cfg1.idle 2 (grid1.coords t) = true := by decide +kernel
section
variable (t : Fin cfg1.N)
theorem liveAt1_0 : cfg1.idle 0 (grid1.coords t) = false := rfl
theorem liveAt1_1 : cfg1.idle 1 (grid1.coords t) = false := rfl
theorem noFlush1_2 (h : ¬cond1_1 (grid1.coords t)) : (cfg1.win 2).flush t = false :=
  Bool.eq_false_iff.mpr fun hf => h ((hcond1_1 t).mpr ((flush1_2 t).mp hf))

abbrev ms1_0 : Memref sig .tc .vmem S1264x128 .bf16 := win1_0.stage (cfg1.slots t 0)
abbrev hs1_0 : (ms1_0 t).IsWhole := hstage1_0 ((cfg1.slots t 0).cast nbuf1_0)
abbrev ms1_1 : Memref sig .tc .vmem S128x1024 .bf16 := win1_1.stage (cfg1.slots t 1)
abbrev hs1_1 : (ms1_1 t).IsWhole := hstage1_1 ((cfg1.slots t 1).cast nbuf1_1)
abbrev ms1_2 : Memref sig .tc .vmem S1264x1024 .f32 := win1_2.stage (cfg1.slots t 2)
abbrev hs1_2 : (ms1_2 t).IsWhole := hstage1_2 ((cfg1.slots t 2).cast nbuf1_2)
end
abbrev scM1 : Memref sig .tc .vmem S1264x1024 .f32 := Memref.whole cc1_scratch0
abbrev VS1 : View sig .tc .vmem S1264x1024 .f32 := scM1.view
abbrev VO1 : View sig .tc .vmem S1264x1024 .f32 := (Memref.whole cc1_stg2_0).view

section
variable {c : Dev nD} {sp s e} {m : Memref sig .tc sp s e} (h : m.IsWhole)

/-- A whole memref owned at X is the points-to of its elements at the one raw contents that reads X. -/
theorem ownsW1 (q : PosShare TreeShare) (X : s.Idx → Elt F e) :
    (owns c.tc m q X : sProp 𝕄) = (m.view.loc c.tc ↦[m.view.set]{q} h.unread X) := by
  unfold owns
  refine Entails.antisymm ?_ ?_ <;> change (_ : sProp 𝕄) ⊢ _
  · iintro ⟨%f, %hf, H⟩; obtain rfl := h.eq_unread hf; iexact H
  · iintro H; iexists _; isplitr; · ipureintro; exact h.read_unread X
    iexact H

/-- Writes that tile a whole memref leave it at the raw contents that read the writes' canon. -/
theorem writesW1 (f) (L : List (View.Piece (Elt F) s e)) (hL : View.Piece.tiledL L s.size = true) :
    m.view.writes (Elt F) f L = h.unread (View.canon L) :=
  h.eq_unread (View.read_writes_eq_canon _ _ _ (View.cover_of_tiledL L s.size hL))

/-- A load of all of a whole memref held at the raw contents that read X reads X. -/
theorem readW1 {off : Fin s.rank → ℕ} (hz : off = fun _ => 0) (inb) (X : s.Idx → Elt F e) :
    View.readAt (Elt F) m.view (Rect.unit off s.size inb).toLoadRect (h.unread X) = X := by
  rw [View.readAt_eq_ld, h.read_unread, View.ld_unit_zero hz]
end

theorem sc1_hz : (![0, 0] : Fin 2 → ℕ) = fun _ => 0 := funext fun a => by fin_cases a <;> rfl

variable {c : Dev nD} {i : grid1.Coords} {arg2 : Memref sig .tc .vmem S1264x128 .bf16} {harg2 : arg2.IsWhole} {arg3 : Memref sig .tc .vmem S128x1024 .bf16} {harg3 : arg3.IsWhole} {arg4 : Memref sig .tc .vmem S1264x1024 .f32} {harg4 : arg4.IsWhole} {arg5 : Memref sig .tc .vmem S1264x1024 .f32} {harg5 : arg5.IsWhole}
  (x0 : Vec F S1264x128 .bf16) (x1 : Vec F S128x1024 .bf16) (xs xi2 : Vec F S1264x1024 .f32)

/-- First point of a row block: the accumulator, held at anything, is zeroed and then updated. -/
theorem kernelRun1_A (E : Set ℕ) (K : PUnit → sProp 𝕄) (hc0 : cond1_0 i) (hc1 : ¬cond1_1 i) :
    iprop(owns c.tc arg2 fullShare x0 ∗ owns c.tc arg3 fullShare x1 ∗ owns c.tc arg4 fullShare xi2 ∗ (∃ d, owns c.tc arg5 fullShare d)
        ∗ (owns c.tc arg2 fullShare x0 ∗ owns c.tc arg3 fullShare x1 ∗ owns c.tc arg4 fullShare xi2 ∗ owns c.tc arg5 fullShare (k1_pay2 k1_pay1 x0 x1) -∗ K ⟨⟩))
      ⊢ wp frame (wpE defs₀ Variants.none c none) E (cc1__spmm_kernel i arg2 harg2 arg3 harg3 arg4 harg4 arg5 harg5) K := by
  simp (disch := assumption) only [cc1__spmm_kernel_eq_skeleton, ownsW1]; unfold cc1__spmm_kernel_skel
  iintro ⟨H0, H1, H2, ⟨%d, HS⟩, Hk⟩
  sl_exec (disch := assumption)
  sl_step
  rw [writesW1 harg5]
  · try sl_unfold_words
    rw [View.canon_cons_unit_zero sc1_hz, View.readCov_unit_zero _ sc1_hz]
    simp only [readW1 harg2 sc1_hz, readW1 harg3 sc1_hz]
    iapply Hk; iframe
  · sl_kernel_rfl

/-- Inner point: the accumulator is updated from what it held. -/
theorem kernelRun1_B (E : Set ℕ) (K : PUnit → sProp 𝕄) (hc0 : ¬cond1_0 i) (hc1 : ¬cond1_1 i) :
    iprop(owns c.tc arg2 fullShare x0 ∗ owns c.tc arg3 fullShare x1 ∗ owns c.tc arg4 fullShare xi2 ∗ owns c.tc arg5 fullShare xs
        ∗ (owns c.tc arg2 fullShare x0 ∗ owns c.tc arg3 fullShare x1 ∗ owns c.tc arg4 fullShare xi2 ∗ owns c.tc arg5 fullShare (k1_pay2 xs x0 x1) -∗ K ⟨⟩))
      ⊢ wp frame (wpE defs₀ Variants.none c none) E (cc1__spmm_kernel i arg2 harg2 arg3 harg3 arg4 harg4 arg5 harg5) K := by
  simp (disch := assumption) only [cc1__spmm_kernel_eq_skeleton, ownsW1]; unfold cc1__spmm_kernel_skel
  iintro ⟨H0, H1, H2, HS, Hk⟩
  sl_exec (disch := assumption)
  sl_step
  rw [writesW1 harg5]
  · try sl_unfold_words
    rw [View.canon_unit_zero sc1_hz]
    simp only [readW1 harg2 sc1_hz, readW1 harg3 sc1_hz, readW1 harg5 sc1_hz]
    iapply Hk; iframe
  · sl_kernel_rfl

/-- Last point of a row block: the accumulator is updated and copied to the output memref, held at anything. -/
theorem kernelRun1_C (E : Set ℕ) (K : PUnit → sProp 𝕄) (hc0 : ¬cond1_0 i) (hc1 : cond1_1 i) :
    iprop(owns c.tc arg2 fullShare x0 ∗ owns c.tc arg3 fullShare x1 ∗ (∃ d, owns c.tc arg4 fullShare d) ∗ owns c.tc arg5 fullShare xs
        ∗ (owns c.tc arg2 fullShare x0 ∗ owns c.tc arg3 fullShare x1 ∗ owns c.tc arg4 fullShare (k1_pay2 xs x0 x1) ∗ owns c.tc arg5 fullShare (k1_pay2 xs x0 x1) -∗ K ⟨⟩))
      ⊢ wp frame (wpE defs₀ Variants.none c none) E (cc1__spmm_kernel i arg2 harg2 arg3 harg3 arg4 harg4 arg5 harg5) K := by
  simp (disch := assumption) only [cc1__spmm_kernel_eq_skeleton, ownsW1]; unfold cc1__spmm_kernel_skel
  iintro ⟨H0, H1, ⟨%d, H2⟩, HS, Hk⟩
  sl_exec (disch := assumption)
  sl_step
  rw [writesW1 harg5, writesW1 harg4]
  · try sl_unfold_words
    rw [View.canon_unit_zero sc1_hz, View.canon_unit_zero sc1_hz, View.readCov_unit_zero _ sc1_hz]
    simp only [readW1 harg2 sc1_hz, readW1 harg3 sc1_hz, readW1 harg5 sc1_hz]
    iapply Hk; iframe
  all_goals sl_kernel_rfl

end Cert.Kernel.Hand

end
-- ==== Proof.K.R1.lean ====
import proofs.«426427_j36155034698037_1_alg».proof.Proof.K.R1Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

noncomputable def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after position n: restarted from the zero fill where a row block begins, else updated. -/
def acc1 : (n : ℕ) → n < cfg1.N → Vec F S1264x1024 .f32
  | 0, hn => k1_pay2 (k1_pay1 (F := F)) (iblk1 V c 0 ⟨0, hn⟩) (iblk1 V c 1 ⟨0, hn⟩)
  | n + 1, hn => k1_pay2 (if (n + 1) % 79 = 0 then k1_pay1 (F := F) else acc1 n (Nat.lt_of_succ_lt hn))
      (iblk1 V c 0 ⟨n + 1, hn⟩) (iblk1 V c 1 ⟨n + 1, hn⟩)

/-- (The output block, the accumulator) after position n: both are the accumulator's value. -/
def outsAt1 (n : ℕ) (hn : n < cfg1.N) : Vec F S1264x1024 .f32 × Vec F S1264x1024 .f32 := (acc1 V c n hn, acc1 V c n hn)

theorem sc1_first (t : Fin cfg1.N) (h : t.val % 79 = 0) :
    (outsAt1 V c t.val t.isLt).2 = k1_pay2 (k1_pay1 (F := F)) (iblk1 V c 0 t) (iblk1 V c 1 t) := by
  obtain ⟨_ | n, hn⟩ := t
  · rfl
  · have h : (n + 1) % 79 = 0 := h
    show k1_pay2 (if (n + 1) % 79 = 0 then _ else _) _ _ = _
    rw [if_pos h]

theorem sc1_next (t : Fin cfg1.N) (h : t.val % 79 ≠ 0) :
    (outsAt1 V c t.val t.isLt).2 = k1_pay2 ((outsAt1 V c (t.val - 1) (by omega)).2) (iblk1 V c 0 t) (iblk1 V c 1 t) := by
  obtain ⟨_ | n, hn⟩ := t
  · exact absurd (Nat.zero_mod _) h
  · have h : ¬(n + 1) % 79 = 0 := h
    show k1_pay2 (if (n + 1) % 79 = 0 then _ else _) _ _ = _
    rw [if_neg h]; rfl

theorem out1_last (t : Fin cfg1.N) (h : t.val % 79 = 78) :
    (outsAt1 V c t.val t.isLt).1 = (outsAt1 V c t.val t.isLt).2 := rfl

/-- The kernel's other scoped buffers, left unopened. -/
abbrev rest1 : sProp 𝕄 :=
  Pipeline.scopedRestBut (Ix := Unit) (Name := ℕ) (U := UR sig nD τ) (Lvl := ℕ) (Val := Elt F) spec1 c [cc1_scratch0]

/-- The class's invariant with the accumulator split off the scoped rest. -/
theorem PhiA1_eq : (Pipeline.ΦA spec1 c : sProp 𝕄)
    = iprop(iprop((∃ d, owns c.tc scM1 fullShare d) ∗ rest1 (F := F) c) ∗ (∃ r, prngReg c r)) := by
  unfold Pipeline.ΦA
  rw [Pipeline.scopedRest_split_of_list spec1 c [cc1_scratch0] (by decide) (by decide)]
  simp only [bigSepL_singleton, scM1, owns_whole]; try rfl

/-- Before position n the accumulator holds what position n - 1 left (anything before the first). -/
def PhiS1 : (n : ℕ) → n ≤ cfg1.N → sProp 𝕄
  | 0, _ => Pipeline.ΦA spec1 c
  | n + 1, hn => iprop(iprop(owns c.tc scM1 fullShare (acc1 V c n hn) ∗ rest1 (F := F) c) ∗ (∃ r, prngReg c r))

/-- Forgetting the accumulator's contents gives the class's invariant back. -/
theorem PhiS1_forget (n : ℕ) (h : n ≤ cfg1.N) : PhiS1 V c n h ⊢ Pipeline.ΦA spec1 c := by
  cases n with
  | zero => exact .rfl
  | succ n =>
    rw [PhiA1_eq]; unfold PhiS1
    iintro ⟨⟨HS, HR⟩, Hg⟩
    iframe HR Hg
    iexists _; iexact HS

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (w : Fin cfg1.W) : (dat1 V c).A w = V c (Pipeline.arrRef spec1 w) := rfl
theorem after1_2 (t : Fin cfg1.N) : (dat1 V c).after 2 t = (outsAt1 V c t.val t.isLt).1 := rfl
theorem q_eq1 (w : Fin cfg1.W) : (dat1 V c).q w = fullShare := rfl
theorem owed_eq1 (t : Fin (cfg1.N + 1)) : (dat1 V c).owed t = 0 := rfl

theorem before1_0 (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (t : Fin cfg1.N) (d) : (dat1 V c).before 1 t d = iblk1 V c 1 t :=
  ((dat1 V c).before_fetched 1 t (fetch1_1 t) d).trans (by unfold Dat.fetched Dat.blockOf iblk1; rw [A_eq1]; try rfl)

def bodyPre1 (t : Fin cfg1.N) : sProp 𝕄 :=
  iprop((dat1 V c).Φ t.castSucc ∗ (dat1 V c).owesAt () t.castSucc
    ∗ (∃ d, owns c.tc (ms1_0 t) fullShare ((dat1 V c).before 0 t d))
    ∗ (∃ d, owns c.tc (ms1_1 t) fullShare ((dat1 V c).before 1 t d))
    ∗ (∃ d, owns c.tc (ms1_2 t) fullShare ((dat1 V c).before 2 t d)))

def bodyPost1 (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

/-- After the first point the invariant holds the accumulator at what the point before left. -/
theorem PhiS1_at (t : Fin cfg1.N) (h : t.val ≠ 0) : (dat1 V c).Φ t.castSucc
    = iprop(iprop(owns c.tc scM1 fullShare (outsAt1 V c (t.val - 1) (by omega)).2 ∗ rest1 (F := F) c) ∗ (∃ r, prngReg c r)) := by
  obtain ⟨_ | n, hn⟩ := t
  · exact absurd rfl h
  · rfl

/-- Each of the three cases of a point (first, inner, last of its row block) turns the invariant before it into the one after. -/
theorem sound_body1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = iprop(iprop(owns c.tc scM1 fullShare (outsAt1 V c t.val t.isLt).2 ∗ rest1 (F := F) c) ∗ (∃ r, prngReg c r)) from rfl,
    show (dat1 V c).leavesExact 0 t = owns c.tc (ms1_0 t) fullShare (iblk1 V c 0 t) from by
      unfold Dat.leavesExact; rw [liveAt1_0 t]; rfl,
    show (dat1 V c).leavesExact 1 t = owns c.tc (ms1_1 t) fullShare (iblk1 V c 1 t) from by
      unfold Dat.leavesExact; rw [liveAt1_1 t]; rfl]
  by_cases h1 : t.val % 79 = 78
  · have h0 : t.val % 79 ≠ 0 := by omega
    rw [show (dat1 V c).leavesExact 2 t = owns c.tc (ms1_2 t) fullShare (outsAt1 V c t.val t.isLt).2 from by
      unfold Dat.leavesExact; rw [liveAt1_2 t ((hcond1_1 t).mpr h1)]; rfl,
      PhiS1_at V c t (fun e => h0 (by rw [e])), sc1_next V c t h0]
    iintro ⟨⟨⟨HS, HR⟩, Hg⟩, Ho, ⟨%d0, H0⟩, ⟨%d1, H1⟩, ⟨%d2, H2⟩⟩
    iapply (kernelRun1_C _ _ _ Set.univ _ (mt (hcond1_0 t).mp h0) ((hcond1_1 t).mpr h1))
    iframe H0 H1 HS
    isplitl [H2]; · iexists _; iexact H2
    iintro ⟨H0, H1, H2, HS⟩
    iframe
  · rw [Dat.leavesExact_idle (dat1 V c) 2 t (idleAt1_2 t (mt (hcond1_1 t).mp h1)) (noFlush1_2 t (mt (hcond1_1 t).mp h1))]
    by_cases h0 : t.val % 79 = 0
    · refine (sep_mono_left (PhiS1_forget V c t.castSucc.val _)).trans ?_
      rw [PhiA1_eq, sc1_first V c t h0]
      iintro ⟨⟨⟨HS, HR⟩, Hg⟩, Ho, ⟨%d0, H0⟩, ⟨%d1, H1⟩, ⟨%d2, H2⟩⟩
      iapply (kernelRun1_A _ _ _ Set.univ _ ((hcond1_0 t).mpr h0) (mt (hcond1_1 t).mp h1))
      iframe H0 H1 H2 HS
      iintro ⟨H0, H1, H2, HS⟩
      iframe
      iexists _; iexact H2
    · rw [PhiS1_at V c t (fun e => h0 (by rw [e])), sc1_next V c t h0]
      iintro ⟨⟨⟨HS, HR⟩, Hg⟩, Ho, ⟨%d0, H0⟩, ⟨%d1, H1⟩, ⟨%d2, H2⟩⟩
      iapply (kernelRun1_B _ _ _ _ Set.univ _ (mt (hcond1_0 t).mp h0) (mt (hcond1_1 t).mp h1))
      iframe H0 H1 H2 HS
      iintro ⟨H0, H1, H2, HS⟩
      iframe
      iexists _; iexact H2

theorem body_obligation1 : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := .rfl

theorem hout1 : (dat1 V c).Φ (Fin.last cfg1.N) ⊢ Pipeline.ΦA spec1 c := PhiS1_forget V c (Fin.last cfg1.N).val _

end Cert.Kernel.Hand

end
-- ==== Proof.K.R2.lean ====
import proofs.«426427_j36155034698037_1_alg».proof.Proof.Gen.Kernel.Launch
import proofs.«426427_j36155034698037_1_alg».proof.Proof.Gen.Kernel.Skeleton
import proofs.«426427_j36155034698037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic Idealize.SL.RA
open Idealize.ShloMosaic.Pipeline (Dat BodyObligation)

variable {F : FTy → Type} [FloatOps F]

variable (V : (c : Dev nD) → (b : Ref sig .tc) → Buf (Elt F) ((c : Thread nD τ).loc b))

/-- Window `w`'s block at point `t` of its array at the entry contents `V`. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1264x1024 := Rect.unit (s := S1264x1024) ![0, 0] S1264x1024.size inb_S1264x1024_S1264x1024_0_0
abbrev r2_1 : Rect S1024x256 := Rect.unit (s := S1024x256) ![0, 0] S1024x256.size inb_S1024x256_S1024x256_0_0
abbrev r2_2 : Rect S1x256 := Rect.unit (s := S1x256) ![0, 0] S1x256.size inb_S1x256_S1x256_0_0
abbrev r2_3 : Rect S1264x256 := Rect.unit (s := S1264x256) ![0, 0] S1264x256.size inb_S1264x256_S1264x256_0_0

/-- The output block from the three input blocks: one store of `x · W + bias` over the whole of it. -/
def out2_3 (x0 : Vec F S1264x1024 .bf16) (x1 : Vec F S1024x256 .bf16) (x2 : Vec F S1x256 .f32) : Vec F S1264x256 .f32 :=
  View.canon [⟨r2_3, k2_pay1 (View.ld x0 r2_0) (View.ld x1 r2_1) (View.ld x2 r2_2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) :
    (dat2 V c).after 3 t = out2_3 (iblk2 V c 0 t) (iblk2 V c 1 t) (iblk2 V c 2 t) := by dsimp only [dat2]

/-- On an input window `before` is `after`: both are the window's block of the entry array. -/
theorem before2 (c : Dev nD) (w : Fin cfg2.W) (hw : (cfg2.win w).isOut = false) :
    ∀ t d, (dat2 V c).before w t d = (dat2 V c).after w t := by
  fin_cases w <;> first
    | exact absurd hw (by decide)
    | exact (dat2 V c).before_in_eq_fetched _ rfl (fun _ => rfl) (fun _ _ _ => rfl) (fun _ => rfl)

/-- The body reads the three input blocks and stores `out2_3` of them over the whole output block. -/
theorem body_obligation2 (c : Dev nD) : BodyObligation (dat2 (F := F) V c) (defs₀ (F := F)) Variants.none () Set.univ := fun t => by
  rw [bigSep_W2, bigSep_W2]
  sl_whnfR [defs₀, Defs.onTc]
  simp only [cc2__matmul_bias_kernel_eq_skeleton]; unfold cc2__matmul_bias_kernel_skel owns
  rewrite [show (dat2 V c).Φ t.succ = (dat2 V c).Φ t.castSucc from rfl,
    show (dat2 V c).owesAt () t.succ = (dat2 V c).owesAt () t.castSucc from rfl]
  iintro ⟨HΦ, Ho, ⟨%d0, %f0, %h0, H0⟩, ⟨%d1, %f1, %h1, H1⟩, ⟨%d2, %f2, %h2, H2⟩, ⟨%d3, %f3, -, H3⟩⟩
  have e0 : _ = iblk2 V c 0 t := h0.trans (before2 V c 0 rfl t d0)
  have e1 : _ = iblk2 V c 1 t := h1.trans (before2 V c 1 rfl t d1)
  have e2 : _ = iblk2 V c 2 t := h2.trans (before2 V c 2 rfl t d2)
  sl_exec
  sl_step
  iframe HΦ Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists _; isplitr
  swap; · iexact H3
  ipureintro
  rw [after2_3, ← e0, ← e1, ← e2]
  exact View.read_writes_eq_canon _ _ _ (View.cover_of_tiled _ r2_3.size rfl)

end Cert.Kernel.Hand

end
-- ==== Proof.K.R3Runs.lean ====
import proofs.«426427_j36155034698037_1_alg».proof.Proof.Gen.Kernel.Launch
import proofs.«426427_j36155034698037_1_alg».proof.Proof.Gen.Kernel.Skeleton
import proofs.«426427_j36155034698037_1_alg».proof.Proof.Gen.Kernel.Points
import Idealize.ShloMosaic.Lib.Pipeline.FrameBody
import Idealize.ShloMosaic.Lib.Ring
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond3_0 (i : grid3.Coords) : Prop :=
  (Scalar.cmpi .ne (Scalar.extui (Scalar.cmpi .eq (BitVec.ofNat 32 (i 1).val) 0#32)) 0#32) = 1#1
theorem hcond3_0 : ∀ t : Fin cfg3.N, cond3_0 (grid3.coords t) ↔ t.val % 79 = 0 := by decide +kernel

abbrev cond3_1 (i : grid3.Coords) : Prop := k3_cond2 i = 1#1
theorem hcond3_1 : ∀ t : Fin cfg3.N, cond3_1 (grid3.coords t) ↔ t.val % 79 = 78 := by decide +kernel

theorem liveAt3_2 : ∀ t : Fin cfg3.N, cond3_1 (grid3.coords t) → cfg3.idle 2 (grid3.coords t) = false := by decide +kernel
theorem idleAt3_2 : ∀ t : Fin cfg3.N, ¬cond3_1 (grid3.coords t) → cfg3.idle 2 (grid3.coords t) = true := by decide +kernel
section
variable (t : Fin cfg3.N)
theorem liveAt3_0 : cfg3.idle 0 (grid3.coords t) = false := rfl
theorem liveAt3_1 : cfg3.idle 1 (grid3.coords t) = false := rfl
theorem noFlush3_2 (h : ¬cond3_1 (grid3.coords t)) : (cfg3.win 2).flush t = false :=
  Bool.eq_false_iff.mpr fun hf => h ((hcond3_1 t).mpr ((flush3_2 t).mp hf))

abbrev ms3_0 : Memref sig .tc .vmem S1264x128 .bf16 := win3_0.stage (cfg3.slots t 0)
abbrev hs3_0 : (ms3_0 t).IsWhole := hstage3_0 ((cfg3.slots t 0).cast nbuf3_0)
abbrev ms3_1 : Memref sig .tc .vmem S128x256 .bf16 := win3_1.stage (cfg3.slots t 1)
abbrev hs3_1 : (ms3_1 t).IsWhole := hstage3_1 ((cfg3.slots t 1).cast nbuf3_1)
abbrev ms3_2 : Memref sig .tc .vmem S1264x256 .f32 := win3_2.stage (cfg3.slots t 2)
abbrev hs3_2 : (ms3_2 t).IsWhole := hstage3_2 ((cfg3.slots t 2).cast nbuf3_2)
end
abbrev scM3 : Memref sig .tc .vmem S1264x256 .f32 := Memref.whole cc3_scratch0
abbrev VS3 : View sig .tc .vmem S1264x256 .f32 := scM3.view
abbrev VO3 : View sig .tc .vmem S1264x256 .f32 := (Memref.whole cc3_stg2_0).view

section
variable {c : Dev nD} {sp s e} {m : Memref sig .tc sp s e} (h : m.IsWhole)

/-- A whole memref owned at X is the points-to of its elements at the one raw contents that reads X. -/
theorem ownsW3 (q : PosShare TreeShare) (X : s.Idx → Elt F e) :
    (owns c.tc m q X : sProp 𝕄) = (m.view.loc c.tc ↦[m.view.set]{q} h.unread X) := by
  unfold owns
  refine Entails.antisymm ?_ ?_ <;> change (_ : sProp 𝕄) ⊢ _
  · iintro ⟨%f, %hf, H⟩; obtain rfl := h.eq_unread hf; iexact H
  · iintro H; iexists _; isplitr; · ipureintro; exact h.read_unread X
    iexact H

/-- Writes that tile a whole memref leave it at the raw contents that read the writes' canon. -/
theorem writesW3 (f) (L : List (View.Piece (Elt F) s e)) (hL : View.Piece.tiledL L s.size = true) :
    m.view.writes (Elt F) f L = h.unread (View.canon L) :=
  h.eq_unread (View.read_writes_eq_canon _ _ _ (View.cover_of_tiledL L s.size hL))

/-- A load of all of a whole memref held at the raw contents that read X reads X. -/
theorem readW3 {off : Fin s.rank → ℕ} (hz : off = fun _ => 0) (inb) (X : s.Idx → Elt F e) :
    View.readAt (Elt F) m.view (Rect.unit off s.size inb).toLoadRect (h.unread X) = X := by
  rw [View.readAt_eq_ld, h.read_unread, View.ld_unit_zero hz]
end

theorem sc3_hz : (![0, 0] : Fin 2 → ℕ) = fun _ => 0 := funext fun a => by fin_cases a <;> rfl

variable {c : Dev nD} {i : grid3.Coords} {arg2 : Memref sig .tc .vmem S1264x128 .bf16} {harg2 : arg2.IsWhole} {arg3 : Memref sig .tc .vmem S128x256 .bf16} {harg3 : arg3.IsWhole} {arg4 : Memref sig .tc .vmem S1264x256 .f32} {harg4 : arg4.IsWhole} {arg5 : Memref sig .tc .vmem S1264x256 .f32} {harg5 : arg5.IsWhole}
  (x0 : Vec F S1264x128 .bf16) (x1 : Vec F S128x256 .bf16) (xs xi2 : Vec F S1264x256 .f32)

/-- First point of a row block: the accumulator, held at anything, is zeroed and then updated. -/
theorem kernelRun3_A (E : Set ℕ) (K : PUnit → sProp 𝕄) (hc0 : cond3_0 i) (hc1 : ¬cond3_1 i) :
    iprop(owns c.tc arg2 fullShare x0 ∗ owns c.tc arg3 fullShare x1 ∗ owns c.tc arg4 fullShare xi2 ∗ (∃ d, owns c.tc arg5 fullShare d)
        ∗ (owns c.tc arg2 fullShare x0 ∗ owns c.tc arg3 fullShare x1 ∗ owns c.tc arg4 fullShare xi2 ∗ owns c.tc arg5 fullShare (k3_pay2 k3_pay1 x0 x1) -∗ K ⟨⟩))
      ⊢ wp frame (wpE defs₀ Variants.none c none) E (cc3__spmm_kernel i arg2 harg2 arg3 harg3 arg4 harg4 arg5 harg5) K := by
  simp (disch := assumption) only [cc3__spmm_kernel_eq_skeleton, ownsW3]; unfold cc3__spmm_kernel_skel
  iintro ⟨H0, H1, H2, ⟨%d, HS⟩, Hk⟩
  sl_exec (disch := assumption)
  sl_step
  rw [writesW3 harg5]
  · try sl_unfold_words
    rw [View.canon_cons_unit_zero sc3_hz, View.readCov_unit_zero _ sc3_hz]
    simp only [readW3 harg2 sc3_hz, readW3 harg3 sc3_hz]
    iapply Hk; iframe
  · sl_kernel_rfl

/-- Inner point: the accumulator is updated from what it held. -/
theorem kernelRun3_B (E : Set ℕ) (K : PUnit → sProp 𝕄) (hc0 : ¬cond3_0 i) (hc1 : ¬cond3_1 i) :
    iprop(owns c.tc arg2 fullShare x0 ∗ owns c.tc arg3 fullShare x1 ∗ owns c.tc arg4 fullShare xi2 ∗ owns c.tc arg5 fullShare xs
        ∗ (owns c.tc arg2 fullShare x0 ∗ owns c.tc arg3 fullShare x1 ∗ owns c.tc arg4 fullShare xi2 ∗ owns c.tc arg5 fullShare (k3_pay2 xs x0 x1) -∗ K ⟨⟩))
      ⊢ wp frame (wpE defs₀ Variants.none c none) E (cc3__spmm_kernel i arg2 harg2 arg3 harg3 arg4 harg4 arg5 harg5) K := by
  simp (disch := assumption) only [cc3__spmm_kernel_eq_skeleton, ownsW3]; unfold cc3__spmm_kernel_skel
  iintro ⟨H0, H1, H2, HS, Hk⟩
  sl_exec (disch := assumption)
  sl_step
  rw [writesW3 harg5]
  · try sl_unfold_words
    rw [View.canon_unit_zero sc3_hz]
    simp only [readW3 harg2 sc3_hz, readW3 harg3 sc3_hz, readW3 harg5 sc3_hz]
    iapply Hk; iframe
  · sl_kernel_rfl

/-- Last point of a row block: the accumulator is updated and copied to the output memref, held at anything. -/
theorem kernelRun3_C (E : Set ℕ) (K : PUnit → sProp 𝕄) (hc0 : ¬cond3_0 i) (hc1 : cond3_1 i) :
    iprop(owns c.tc arg2 fullShare x0 ∗ owns c.tc arg3 fullShare x1 ∗ (∃ d, owns c.tc arg4 fullShare d) ∗ owns c.tc arg5 fullShare xs
        ∗ (owns c.tc arg2 fullShare x0 ∗ owns c.tc arg3 fullShare x1 ∗ owns c.tc arg4 fullShare (k3_pay2 xs x0 x1) ∗ owns c.tc arg5 fullShare (k3_pay2 xs x0 x1) -∗ K ⟨⟩))
      ⊢ wp frame (wpE defs₀ Variants.none c none) E (cc3__spmm_kernel i arg2 harg2 arg3 harg3 arg4 harg4 arg5 harg5) K := by
  simp (disch := assumption) only [cc3__spmm_kernel_eq_skeleton, ownsW3]; unfold cc3__spmm_kernel_skel
  iintro ⟨H0, H1, ⟨%d, H2⟩, HS, Hk⟩
  sl_exec (disch := assumption)
  sl_step
  rw [writesW3 harg5, writesW3 harg4]
  · try sl_unfold_words
    rw [View.canon_unit_zero sc3_hz, View.canon_unit_zero sc3_hz, View.readCov_unit_zero _ sc3_hz]
    simp only [readW3 harg2 sc3_hz, readW3 harg3 sc3_hz, readW3 harg5 sc3_hz]
    iapply Hk; iframe
  all_goals sl_kernel_rfl

end Cert.Kernel.Hand

end
-- ==== Proof.K.R3.lean ====
import proofs.«426427_j36155034698037_1_alg».proof.Proof.K.R3Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

noncomputable def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after position n: restarted from the zero fill where a row block begins, else updated. -/
def acc3 : (n : ℕ) → n < cfg3.N → Vec F S1264x256 .f32
  | 0, hn => k3_pay2 (k3_pay1 (F := F)) (iblk3 V c 0 ⟨0, hn⟩) (iblk3 V c 1 ⟨0, hn⟩)
  | n + 1, hn => k3_pay2 (if (n + 1) % 79 = 0 then k3_pay1 (F := F) else acc3 n (Nat.lt_of_succ_lt hn))
      (iblk3 V c 0 ⟨n + 1, hn⟩) (iblk3 V c 1 ⟨n + 1, hn⟩)

/-- (The output block, the accumulator) after position n: both are the accumulator's value. -/
def outsAt3 (n : ℕ) (hn : n < cfg3.N) : Vec F S1264x256 .f32 × Vec F S1264x256 .f32 := (acc3 V c n hn, acc3 V c n hn)

theorem sc3_first (t : Fin cfg3.N) (h : t.val % 79 = 0) :
    (outsAt3 V c t.val t.isLt).2 = k3_pay2 (k3_pay1 (F := F)) (iblk3 V c 0 t) (iblk3 V c 1 t) := by
  obtain ⟨_ | n, hn⟩ := t
  · rfl
  · have h : (n + 1) % 79 = 0 := h
    show k3_pay2 (if (n + 1) % 79 = 0 then _ else _) _ _ = _
    rw [if_pos h]

theorem sc3_next (t : Fin cfg3.N) (h : t.val % 79 ≠ 0) :
    (outsAt3 V c t.val t.isLt).2 = k3_pay2 ((outsAt3 V c (t.val - 1) (by omega)).2) (iblk3 V c 0 t) (iblk3 V c 1 t) := by
  obtain ⟨_ | n, hn⟩ := t
  · exact absurd (Nat.zero_mod _) h
  · have h : ¬(n + 1) % 79 = 0 := h
    show k3_pay2 (if (n + 1) % 79 = 0 then _ else _) _ _ = _
    rw [if_neg h]; rfl

theorem out3_last (t : Fin cfg3.N) (h : t.val % 79 = 78) :
    (outsAt3 V c t.val t.isLt).1 = (outsAt3 V c t.val t.isLt).2 := rfl

/-- The kernel's other scoped buffers, left unopened. -/
abbrev rest3 : sProp 𝕄 :=
  Pipeline.scopedRestBut (Ix := Unit) (Name := ℕ) (U := UR sig nD τ) (Lvl := ℕ) (Val := Elt F) spec3 c [cc3_scratch0]

/-- The class's invariant with the accumulator split off the scoped rest. -/
theorem PhiA3_eq : (Pipeline.ΦA spec3 c : sProp 𝕄)
    = iprop(iprop((∃ d, owns c.tc scM3 fullShare d) ∗ rest3 (F := F) c) ∗ (∃ r, prngReg c r)) := by
  unfold Pipeline.ΦA
  rw [Pipeline.scopedRest_split_of_list spec3 c [cc3_scratch0] (by decide) (by decide)]
  simp only [bigSepL_singleton, scM3, owns_whole]; try rfl

/-- Before position n the accumulator holds what position n - 1 left (anything before the first). -/
def PhiS3 : (n : ℕ) → n ≤ cfg3.N → sProp 𝕄
  | 0, _ => Pipeline.ΦA spec3 c
  | n + 1, hn => iprop(iprop(owns c.tc scM3 fullShare (acc3 V c n hn) ∗ rest3 (F := F) c) ∗ (∃ r, prngReg c r))

/-- Forgetting the accumulator's contents gives the class's invariant back. -/
theorem PhiS3_forget (n : ℕ) (h : n ≤ cfg3.N) : PhiS3 V c n h ⊢ Pipeline.ΦA spec3 c := by
  cases n with
  | zero => exact .rfl
  | succ n =>
    rw [PhiA3_eq]; unfold PhiS3
    iintro ⟨⟨HS, HR⟩, Hg⟩
    iframe HR Hg
    iexists _; iexact HS

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (w : Fin cfg3.W) : (dat3 V c).A w = V c (Pipeline.arrRef spec3 w) := rfl
theorem after3_2 (t : Fin cfg3.N) : (dat3 V c).after 2 t = (outsAt3 V c t.val t.isLt).1 := rfl
theorem q_eq3 (w : Fin cfg3.W) : (dat3 V c).q w = fullShare := rfl
theorem owed_eq3 (t : Fin (cfg3.N + 1)) : (dat3 V c).owed t = 0 := rfl

theorem before3_0 (t : Fin cfg3.N) (d) : (dat3 V c).before 0 t d = iblk3 V c 0 t :=
  ((dat3 V c).before_fetched 0 t (fetch3_0 t) d).trans (by unfold Dat.fetched Dat.blockOf iblk3; rw [A_eq3]; try rfl)
theorem before3_1 (t : Fin cfg3.N) (d) : (dat3 V c).before 1 t d = iblk3 V c 1 t :=
  ((dat3 V c).before_fetched 1 t (fetch3_1 t) d).trans (by unfold Dat.fetched Dat.blockOf iblk3; rw [A_eq3]; try rfl)

def bodyPre3 (t : Fin cfg3.N) : sProp 𝕄 :=
  iprop((dat3 V c).Φ t.castSucc ∗ (dat3 V c).owesAt () t.castSucc
    ∗ (∃ d, owns c.tc (ms3_0 t) fullShare ((dat3 V c).before 0 t d))
    ∗ (∃ d, owns c.tc (ms3_1 t) fullShare ((dat3 V c).before 1 t d))
    ∗ (∃ d, owns c.tc (ms3_2 t) fullShare ((dat3 V c).before 2 t d)))

def bodyPost3 (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t)

/-- After the first point the invariant holds the accumulator at what the point before left. -/
theorem PhiS3_at (t : Fin cfg3.N) (h : t.val ≠ 0) : (dat3 V c).Φ t.castSucc
    = iprop(iprop(owns c.tc scM3 fullShare (outsAt3 V c (t.val - 1) (by omega)).2 ∗ rest3 (F := F) c) ∗ (∃ r, prngReg c r)) := by
  obtain ⟨_ | n, hn⟩ := t
  · exact absurd rfl h
  · rfl

/-- Each of the three cases of a point (first, inner, last of its row block) turns the invariant before it into the one after. -/
theorem sound_body3 (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = iprop(iprop(owns c.tc scM3 fullShare (outsAt3 V c t.val t.isLt).2 ∗ rest3 (F := F) c) ∗ (∃ r, prngReg c r)) from rfl,
    show (dat3 V c).leavesExact 0 t = owns c.tc (ms3_0 t) fullShare (iblk3 V c 0 t) from by
      unfold Dat.leavesExact; rw [liveAt3_0 t]; rfl,
    show (dat3 V c).leavesExact 1 t = owns c.tc (ms3_1 t) fullShare (iblk3 V c 1 t) from by
      unfold Dat.leavesExact; rw [liveAt3_1 t]; rfl]
  by_cases h1 : t.val % 79 = 78
  · have h0 : t.val % 79 ≠ 0 := by omega
    rw [show (dat3 V c).leavesExact 2 t = owns c.tc (ms3_2 t) fullShare (outsAt3 V c t.val t.isLt).2 from by
      unfold Dat.leavesExact; rw [liveAt3_2 t ((hcond3_1 t).mpr h1)]; rfl,
      PhiS3_at V c t (fun e => h0 (by rw [e])), sc3_next V c t h0]
    iintro ⟨⟨⟨HS, HR⟩, Hg⟩, Ho, ⟨%d0, H0⟩, ⟨%d1, H1⟩, ⟨%d2, H2⟩⟩
    iapply (kernelRun3_C _ _ _ Set.univ _ (mt (hcond3_0 t).mp h0) ((hcond3_1 t).mpr h1))
    iframe H0 H1 HS
    isplitl [H2]; · iexists _; iexact H2
    iintro ⟨H0, H1, H2, HS⟩
    iframe
  · rw [Dat.leavesExact_idle (dat3 V c) 2 t (idleAt3_2 t (mt (hcond3_1 t).mp h1)) (noFlush3_2 t (mt (hcond3_1 t).mp h1))]
    by_cases h0 : t.val % 79 = 0
    · refine (sep_mono_left (PhiS3_forget V c t.castSucc.val _)).trans ?_
      rw [PhiA3_eq, sc3_first V c t h0]
      iintro ⟨⟨⟨HS, HR⟩, Hg⟩, Ho, ⟨%d0, H0⟩, ⟨%d1, H1⟩, ⟨%d2, H2⟩⟩
      iapply (kernelRun3_A _ _ _ Set.univ _ ((hcond3_0 t).mpr h0) (mt (hcond3_1 t).mp h1))
      iframe H0 H1 H2 HS
      iintro ⟨H0, H1, H2, HS⟩
      iframe
      iexists _; iexact H2
    · rw [PhiS3_at V c t (fun e => h0 (by rw [e])), sc3_next V c t h0]
      iintro ⟨⟨⟨HS, HR⟩, Hg⟩, Ho, ⟨%d0, H0⟩, ⟨%d1, H1⟩, ⟨%d2, H2⟩⟩
      iapply (kernelRun3_B _ _ _ _ Set.univ _ (mt (hcond3_0 t).mp h0) (mt (hcond3_1 t).mp h1))
      iframe H0 H1 H2 HS
      iintro ⟨H0, H1, H2, HS⟩
      iframe
      iexists _; iexact H2

theorem body_obligation3 : BodyObligation (dat3 (F := F) V c) (defs₀ (F := F)) Variants.none () Set.univ := fun t => by
  rw [bigSep_W3, bigSep_W3]
  exact sound_body3 V c t

theorem hin3 : Pipeline.ΦA spec3 c ⊢ (dat3 V c).Φ 0 := .rfl

theorem hout3 : (dat3 V c).Φ (Fin.last cfg3.N) ⊢ Pipeline.ΦA spec3 c := PhiS3_forget V c (Fin.last cfg3.N).val _

end Cert.Kernel.Hand

end
-- ==== Proof.K.Fold.lean ====
import proofs.«426427_j36155034698037_1_alg».proof.Proof.K.R0
import proofs.«426427_j36155034698037_1_alg».proof.Proof.K.R1
import proofs.«426427_j36155034698037_1_alg».proof.Proof.K.R2
import proofs.«426427_j36155034698037_1_alg».proof.Proof.K.R3
import proofs.«426427_j36155034698037_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.ShloMosaic.Pipeline (withArrays arrRef)

variable {F : FTy → Type} [FloatOps F]
variable (m : (ℓ : Loc nD τ sig) → Buf (Elt F) ℓ) (ρ : Dev nD → PrngReg)

-- The contents `W` read at a reference `b : Ref sig .tc`.
abbrev atTc (W : Dev nD → Valuation τ sig (Elt F)) :
    (c : Dev nD) → (b : Ref sig .tc) → Buf (Elt F) ((c : Thread nD τ).loc b) := fun c b => W c b

-- `WJ`: the buffer contents before item `J` of @main, each obtained from the one before by that item's action.
abbrev W0 : Dev nD → Valuation τ sig (Elt F) := fun c b => (s₀ m ρ).mem ((c : Dev nD), b)
abbrev W1 (c : Dev nD) := StableHlo.after hostOps0 (W0 m ρ c)
abbrev W2 (c : Dev nD) := StableHlo.after hostOps0_1 (W1 m ρ c)
abbrev W3 (c : Dev nD) := StableHlo.after hostOps0_2 (W2 m ρ c)
abbrev V3 := atTc (W3 m ρ)
-- After a region: its windows' arrays at the proof data's final contents, every other buffer as before.
def W4 (c : Dev nD) := withArrays spec0 c (W3 m ρ c) fun w => (dat0 (V3 m ρ) c).arrAt w cfg0.N
abbrev W5 (c : Dev nD) := StableHlo.after hostOps1 (W4 m ρ c)
abbrev V5 := atTc (W5 m ρ)
def W6 (c : Dev nD) := withArrays spec1 c (W5 m ρ c) fun w => (dat1 (V5 m ρ) c).arrAt w cfg1.N
abbrev V6 := atTc (W6 m ρ)
abbrev W7 (c : Dev nD) := StableHlo.after hostOps2 (W6 m ρ c)
abbrev W8 (c : Dev nD) := StableHlo.after hostOps2_1 (W7 m ρ c)
abbrev V8 := atTc (W8 m ρ)
abbrev W9 (c : Dev nD) := StableHlo.after hostOps2_2 (W8 m ρ c)
abbrev W10 (c : Dev nD) := StableHlo.after hostOps2_3 (W9 m ρ c)
abbrev W11 (c : Dev nD) := StableHlo.after hostOps2_4 (W10 m ρ c)
abbrev V11 := atTc (W11 m ρ)
def W12 (c : Dev nD) := withArrays spec2 c (W11 m ρ c) fun w => (dat2 (V11 m ρ) c).arrAt w cfg2.N
abbrev W13 (c : Dev nD) := StableHlo.after hostOps3 (W12 m ρ c)
abbrev V13 := atTc (W13 m ρ)
def W14 (c : Dev nD) := withArrays spec3 c (W13 m ρ c) fun w => (dat3 (V13 m ρ) c).arrAt w cfg3.N
abbrev V14 := atTc (W14 m ρ)
abbrev W15 (c : Dev nD) := StableHlo.after hostOps4 (W14 m ρ c)

theorem W4_arr (c : Dev nD) (w : Fin cfg0.W) :
    W4 m ρ c (Proc.devRef .tc (arrRef spec0 w)) = (dat0 (V3 m ρ) c).arrAt w cfg0.N :=
  Pipeline.withArrays_arr spec0 launch0.win.arr_inj c _ _ w
theorem W4_of_ne (c : Dev nD) (b : Ref sig .tc) (hb : ∀ w, arrRef spec0 w ≠ b) :
    W4 m ρ c (Proc.devRef .tc b) = W3 m ρ c (Proc.devRef .tc b) :=
  Pipeline.withArrays_of_ne spec0 c _ _ b hb
theorem W6_arr (c : Dev nD) (w : Fin cfg1.W) :
    W6 m ρ c (Proc.devRef .tc (arrRef spec1 w)) = (dat1 (V5 m ρ) c).arrAt w cfg1.N :=
  Pipeline.withArrays_arr spec1 launch1.win.arr_inj c _ _ w
theorem W6_of_ne (c : Dev nD) (b : Ref sig .tc) (hb : ∀ w, arrRef spec1 w ≠ b) :
    W6 m ρ c (Proc.devRef .tc b) = W5 m ρ c (Proc.devRef .tc b) :=
  Pipeline.withArrays_of_ne spec1 c _ _ b hb
theorem W12_arr (c : Dev nD) (w : Fin cfg2.W) :
    W12 m ρ c (Proc.devRef .tc (arrRef spec2 w)) = (dat2 (V11 m ρ) c).arrAt w cfg2.N :=
  Pipeline.withArrays_arr spec2 launch2.win.arr_inj c _ _ w
theorem W12_of_ne (c : Dev nD) (b : Ref sig .tc) (hb : ∀ w, arrRef spec2 w ≠ b) :
    W12 m ρ c (Proc.devRef .tc b) = W11 m ρ c (Proc.devRef .tc b) :=
  Pipeline.withArrays_of_ne spec2 c _ _ b hb
theorem W14_arr (c : Dev nD) (w : Fin cfg3.W) :
    W14 m ρ c (Proc.devRef .tc (arrRef spec3 w)) = (dat3 (V13 m ρ) c).arrAt w cfg3.N :=
  Pipeline.withArrays_arr spec3 launch3.win.arr_inj c _ _ w
theorem W14_of_ne (c : Dev nD) (b : Ref sig .tc) (hb : ∀ w, arrRef spec3 w ≠ b) :
    W14 m ρ c (Proc.devRef .tc b) = W13 m ρ c (Proc.devRef .tc b) :=
  Pipeline.withArrays_of_ne spec3 c _ _ b hb

-- No host stretch writes `r` and no window of any region sits on it.
abbrev Untouched (r : Ref sig .tc) : Prop :=
  (r ∉ hostOps0_W ∧ r ∉ hostOps0_1_W ∧ r ∉ hostOps0_2_W ∧ r ∉ hostOps1_W ∧ r ∉ hostOps2_W ∧ r ∉ hostOps2_1_W
    ∧ r ∉ hostOps2_2_W ∧ r ∉ hostOps2_3_W ∧ r ∉ hostOps2_4_W ∧ r ∉ hostOps3_W ∧ r ∉ hostOps4_W)
  ∧ (∀ w, arrRef spec0 w ≠ r) ∧ (∀ w, arrRef spec1 w ≠ r) ∧ (∀ w, arrRef spec2 w ≠ r) ∧ ∀ w, arrRef spec3 w ≠ r

-- Then `r` holds at the end what it held at launch: every item keeps it.
theorem W15_of_untouched (c : Dev nD) (r : Ref sig .tc) (h : Untouched r) :
    W15 m ρ c (Proc.devRef .tc r) = m ((c : Thread nD τ).loc r) := by
  obtain ⟨⟨h1, h2, h3, h5, h7, h8, h9, h10, h11, h13, h15⟩, g0, g1, g2, g3⟩ := h
  exact (StableHlo.after_of_writes_sub hostOps4 _ hostOps4_writes h15).trans <| (W14_of_ne m ρ c r g3).trans <|
    (StableHlo.after_of_writes_sub hostOps3 _ hostOps3_writes h13).trans <| (W12_of_ne m ρ c r g2).trans <|
    (StableHlo.after_of_writes_sub hostOps2_4 _ hostOps2_4_writes h11).trans <|
    (StableHlo.after_of_writes_sub hostOps2_3 _ hostOps2_3_writes h10).trans <|
    (StableHlo.after_of_writes_sub hostOps2_2 _ hostOps2_2_writes h9).trans <|
    (StableHlo.after_of_writes_sub hostOps2_1 _ hostOps2_1_writes h8).trans <|
    (StableHlo.after_of_writes_sub hostOps2 _ hostOps2_writes h7).trans <| (W6_of_ne m ρ c r g1).trans <|
    (StableHlo.after_of_writes_sub hostOps1 _ hostOps1_writes h5).trans <| (W4_of_ne m ρ c r g0).trans <|
    (StableHlo.after_of_writes_sub hostOps0_2 _ hostOps0_2_writes h3).trans <|
    (StableHlo.after_of_writes_sub hostOps0_1 _ hostOps0_1_writes h2).trans <|
    StableHlo.after_of_writes_sub hostOps0 _ hostOps0_writes h1

end Cert.Kernel.Hand

end
-- ==== Proof.K.Run.lean ====
import proofs.«426427_j36155034698037_1_alg».proof.Proof.K.Fold

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `pdats p`: region `p`'s proof data over the contents it starts from.
def pdats : (p : Fin 4) → (c : Dev nD) → Dat τ (Elt F) Unit ℕ (UR sig nD τ) ℕ (Pipeline.pin (pcfgs (F := F)) adm p) c
  | ⟨0, _⟩ => dat0 (V3 m ρ)
  | ⟨1, _⟩ => dat1 (V5 m ρ)
  | ⟨2, _⟩ => dat2 (V11 m ρ)
  | ⟨3, _⟩ => dat3 (V13 m ρ)
abbrev 𝒱₀ : Variants := Variants.none
abbrev L : GSem nD τ sig → Finset Unit := fun _ => ∅
abbrev lv : GSem nD τ sig → Unit → ℕ := fun _ _ => 0
-- What a core holds beside its buffers between two items.
abbrev R (c : Dev nD) : sProp 𝕄 := iprop((∃ r, prngReg c r) ∗ ∃ W, owes (c : Thread nD τ) (0 : CellTallies nD τ sig Unit) W)
-- The thread state between two items: every unscoped buffer at `W c`, beside `R c`.
abbrev T (W : Dev nD → Valuation τ sig (Elt F)) (c : Dev nD) : sProp 𝕄 :=
  iprop(StableHlo.held (c : Thread nD τ) (ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ ucRefs τ sig :=
  Finset.mem_filter.mpr ⟨StableHlo.devRef_mem_tcRefs b, h⟩

-- Region `p` as a segment from `T W` to `T` of `W` updated at the windows' arrays with the proof data's final contents.
def reg (p : Fin 4) (lf : Pipeline.LaunchFacts (nD := nD) (τ := τ) cfgs p) (W : Dev nD → Valuation τ sig (Elt F))
    (hbody : ∀ c, Pipeline.BodyObligation (pdats m ρ p c) (defs₀ (F := F)) 𝒱₀ () Set.univ)
    (howed : ∀ c t, (pdats m ρ p c).owed t = 0) (hrec : ∀ c, (pdats m ρ p c).recorded 0 = Set.univ)
    (hq : ∀ c w, (pdats m ρ p c).q w = fullShare)
    (hA : ∀ c w, (pdats m ρ p c).A w = W c (Proc.devRef .tc (Pipeline.arrRef (cfgs p).spec w)))
    (h0 : ∀ c, Pipeline.ΦA (cfgs p).spec c ⊢ (pdats m ρ p c).Φ 0)
    (hN : ∀ c, (pdats m ρ p c).Φ (Fin.last (cfgs p).N) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := T W
  post := T fun c => Pipeline.withArrays (cfgs p).spec c (W c) fun w => (pdats m ρ p c).arrAt w (cfgs p).N
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (pcfgs (F := F)) adm (pdats m ρ) lf.win lf.arr_whole c
      ((pdats m ρ p c).share_full (hq c)) (fun b => W c b) (hA c)
    rw [Pipeline.unscopedBufs_held] at hsplit
    unfold Pipeline.prefHeld Pipeline.Dat.owesAt Pipeline.owesWithin
    rw [howed c, show (Finset.univ : Finset (Fin 0)) = ∅ from rfl, BI.bigSep_empty]
    iintro ⟨⟨Hub, Hp, %O, HO⟩, -, -⟩
    ihave H := hsplit $$ Hub
    icases H with ⟨Ha, Hrest⟩
    imodintro
    iframe Ha Hp Hrest
    isplitr; · iempintro
    iexists O; iframe HO
    ipureintro; exact fun _ _ => Or.inl (hrec c ▸ trivial)
  hin c := by
    refine .trans ?_ (h0 c)
    unfold Pipeline.ΦA
    iintro ⟨Hp, -, Hr⟩
    iframe
  hout c := by
    refine (hN c).trans ?_
    rw [Pipeline.ownSems0_none]; unfold Pipeline.ΦA
    iintro ⟨Hr, Hp⟩
    iframe; iempintro
  hexit c := by
    have hjoin := Pipeline.unscopedBufs_of_arrays (pcfgs (F := F)) adm (Ix := Unit) (Name := ℕ) (U := UR sig nD τ) (Lvl := ℕ)
      lf.win lf.arr_whole c (pdats m ρ) ((pdats m ρ p c).share_full (hq c)) (fun b => W c b)
      (fun b => Pipeline.withArrays (cfgs p).spec c (W c) (fun w => (pdats m ρ p c).arrAt w (cfgs p).N) b)
      ((pdats m ρ p c).arrAt · (cfgs p).N) (fun w => (Pipeline.withArrays_arr (cfgs p).spec lf.win.arr_inj c (W c) (fun w => (pdats m ρ p c).arrAt w (cfgs p).N) w).symm)
      fun b hb => Pipeline.withArrays_of_ne (cfgs p).spec c (W c) _ b fun w e => hb (Finset.mem_image.mpr ⟨w, Finset.mem_univ _, e⟩)
    rw [Pipeline.unscopedBufs_held] at hjoin
    unfold Pipeline.Dat.owesAt Pipeline.owesWithin; rw [howed c]
    iintro ⟨Ha, ⟨%O, -, HO⟩, HY, Hrest⟩
    imodintro
    isplitl [Ha Hrest]; · iapply hjoin; iframe
    isplitl [HY]; · iexact HY
    iexists O; iexact HO

-- @main as the list of its items: the host stretches from `W0`, `W1`, … and the four regions.
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg m ρ 0 launch0 (W3 m ρ) (body_obligation0 (V3 m ρ)) (fun _ _ => rfl) (fun _ => rfl)
      (fun _ _ => rfl) (A_eq0 (V3 m ρ)) (fun _ => .rfl) fun _ => .rfl),
    .host (hseg hostOps1 hostOps1_sub hostOps1_fresh (W4 m ρ)),
    .region (reg m ρ 1 launch1 (W5 m ρ) (body_obligation1 (V5 m ρ)) (owed_eq1 (V5 m ρ)) (fun _ => rfl)
      (q_eq1 (V5 m ρ)) (A_eq1 (V5 m ρ)) (hin1 (V5 m ρ)) (hout1 (V5 m ρ))),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .host (hseg hostOps2_3 hostOps2_3_sub hostOps2_3_fresh (W9 m ρ)),
    .host (hseg hostOps2_4 hostOps2_4_sub hostOps2_4_fresh (W10 m ρ)),
    .region (reg m ρ 2 launch2 (W11 m ρ) (body_obligation2 (V11 m ρ)) (fun _ _ => rfl) (fun _ => rfl)
      (fun _ _ => rfl) (A_eq2 (V11 m ρ)) (fun _ => .rfl) fun _ => .rfl),
    .host (hseg hostOps3 hostOps3_sub hostOps3_fresh (W12 m ρ)),
    .region (reg m ρ 3 launch3 (W13 m ρ) (body_obligation3 (V13 m ρ)) (owed_eq3 (V13 m ρ)) (fun _ => rfl)
      (q_eq3 (V13 m ρ)) (A_eq3 (V13 m ρ)) (hin3 (V13 m ρ)) (hout3 (V13 m ρ))),
    .host (hseg hostOps4 hostOps4_sub hostOps4_fresh (W14 m ρ)) ]
theorem main_run (c : Dev nD) : main (F := F) c = Pipeline.Seg.run (segs m ρ) := (main_chain c).trans (by chain_rfl)

set_option backward.isDefEq.respectTransparency.types false in
-- @main terminates under weak fairness; the result buffer ends at `W15`, every argument as it began.
theorem run : θ_run defs (onTc (τ := τ) (main (F := F))) ⟨m, fun _ => 0, ρ⟩ (fun r => ∀ c : Dev nD,
      r.2.mem ((c.tc : Thread nD τ).loc main_v78) = W15 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := fun c => iprop(StableHlo.held (c : Thread nD τ) (ucRefs τ sig) (W15 m ρ c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = W15 m ρ c b)
    (hfin := fun c s' => by
      iintro ⟨⟨Hh, -⟩, HSI⟩
      unfold StableHlo.held
      imodintro
      iapply (pointsTo_read_all (ucRefs τ sig) (fun b => (((c : Thread nD τ)).1, b)) (W15 m ρ c) s')
      iframe)
    (hQ := fun s h c =>
      have A (r : Ref sig .tc) (hs : ¬ (Proc.devRef .tc r : DevRef τ sig).isScoped) (hu : Untouched r) :=
        (h c _ (mem_uc r hs)).trans (W15_of_untouched m ρ c r hu)
      ⟨h c _ (mem_uc main_v78 (by decide)), A main_arg0 (by decide) (by decide),
       A main_arg1 (by decide) (by decide),
       A main_arg2 (by decide) (by decide),
       A main_arg3 (by decide) (by decide),
       A main_arg4 (by decide) (by decide),
       A main_arg5 (by decide) (by decide),
       A main_arg6 (by decide) (by decide),
       A main_arg7 (by decide) (by decide),
       A main_arg8 (by decide) (by decide),
       A main_arg9 (by decide) (by decide),
       A main_arg10 (by decide) (by decide),
       A main_arg11 (by decide) (by decide)⟩)

-- Dropping the result's conjunct leaves the frame claim.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run m ρ)

end Cert.Kernel.Hand

end
-- ==== Proof.KI.R0.lean ====
import proofs.«426427_j36155034698037_1_alg».proof.Proof.Gen.KernelIdeal.Launch
import proofs.«426427_j36155034698037_1_alg».proof.Proof.Gen.KernelIdeal.Skeleton
import proofs.«426427_j36155034698037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic Idealize.SL.RA
open Idealize.ShloMosaic.Pipeline (Dat BodyObligation)

variable {F : FTy → Type} [FloatOps F]

variable (V : (c : Dev nD) → (b : Ref sig .tc) → Buf (Elt F) ((c : Thread nD τ).loc b))

/-- Window `w`'s block at point `t` of its array at the entry contents `V`. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1264x1024 := Rect.unit (s := S1264x1024) ![0, 0] S1264x1024.size inb_S1264x1024_S1264x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S1264x1024 := Rect.unit (s := S1264x1024) ![0, 0] S1264x1024.size inb_S1264x1024_S1264x1024_0_0

/-- The output block from the three input blocks: one store of `x · W + bias` over the whole of it. -/
def out0_3 (x0 : Vec F S1264x1024 .bf16) (x1 : Vec F S1024x1024 .bf16) (x2 : Vec F S1x1024 .f32) : Vec F S1264x1024 .f32 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

/-- On an input window `before` is `after`: both are the window's block of the entry array. -/
theorem before0 (c : Dev nD) (w : Fin cfg0.W) (hw : (cfg0.win w).isOut = false) :
    ∀ t d, (dat0 V c).before w t d = (dat0 V c).after w t := by
  fin_cases w <;> first
    | exact absurd hw (by decide)
    | exact (dat0 V c).before_in_eq_fetched _ rfl (fun _ => rfl) (fun _ _ _ => rfl) (fun _ => rfl)

/-- The body reads the three input blocks and stores `out0_3` of them over the whole output block. -/
theorem body_obligation0 (c : Dev nD) : BodyObligation (dat0 (F := F) V c) (defs₀ (F := F)) Variants.none () Set.univ := fun t => by
  rw [bigSep_W0, bigSep_W0]
  sl_whnfR [defs₀, Defs.onTc]
  simp only [cc0__matmul_bias_kernel_eq_skeleton]; unfold cc0__matmul_bias_kernel_skel owns
  rewrite [show (dat0 V c).Φ t.succ = (dat0 V c).Φ t.castSucc from rfl,
    show (dat0 V c).owesAt () t.succ = (dat0 V c).owesAt () t.castSucc from rfl]
  iintro ⟨HΦ, Ho, ⟨%d0, %f0, %h0, H0⟩, ⟨%d1, %f1, %h1, H1⟩, ⟨%d2, %f2, %h2, H2⟩, ⟨%d3, %f3, -, H3⟩⟩
  have e0 : _ = iblk0 V c 0 t := h0.trans (before0 V c 0 rfl t d0)
  have e1 : _ = iblk0 V c 1 t := h1.trans (before0 V c 1 rfl t d1)
  have e2 : _ = iblk0 V c 2 t := h2.trans (before0 V c 2 rfl t d2)
  sl_exec
  sl_step
  iframe HΦ Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists _; isplitr
  swap; · iexact H3
  ipureintro
  rw [after0_3, ← e0, ← e1, ← e2]
  exact View.read_writes_eq_canon _ _ _ (View.cover_of_tiled _ r0_3.size rfl)

end Cert.KernelIdeal.Hand

end
-- ==== Proof.KI.R1Runs.lean ====
import proofs.«426427_j36155034698037_1_alg».proof.Proof.Gen.KernelIdeal.Launch
import proofs.«426427_j36155034698037_1_alg».proof.Proof.Gen.KernelIdeal.Skeleton
import proofs.«426427_j36155034698037_1_alg».proof.Proof.Gen.KernelIdeal.Points
import Idealize.ShloMosaic.Lib.Pipeline.FrameBody
import Idealize.ShloMosaic.Lib.Ring
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 79 = 0 := by decide +kernel

abbrev cond1_1 (i : grid1.Coords) : Prop := k1_cond2 i = 1#1
theorem hcond1_1 : ∀ t : Fin cfg1.N, cond1_1 (grid1.coords t) ↔ t.val % 79 = 78 := by decide +kernel

theorem liveAt1_2 : ∀ t : Fin cfg1.N, cond1_1 (grid1.coords t) → cfg1.idle 2 (grid1.coords t) = false := by decide +kernel
theorem idleAt1_2 : ∀ t : Fin cfg1.N, ¬cond1_1 (grid1.coords t) → cfg1.idle 2 (grid1.coords t) = true := by decide +kernel
section
variable (t : Fin cfg1.N)
theorem liveAt1_0 : cfg1.idle 0 (grid1.coords t) = false := rfl
theorem liveAt1_1 : cfg1.idle 1 (grid1.coords t) = false := rfl
theorem noFlush1_2 (h : ¬cond1_1 (grid1.coords t)) : (cfg1.win 2).flush t = false :=
  Bool.eq_false_iff.mpr fun hf => h ((hcond1_1 t).mpr ((flush1_2 t).mp hf))

abbrev ms1_0 : Memref sig .tc .vmem S1264x128 .bf16 := win1_0.stage (cfg1.slots t 0)
abbrev hs1_0 : (ms1_0 t).IsWhole := hstage1_0 ((cfg1.slots t 0).cast nbuf1_0)
abbrev ms1_1 : Memref sig .tc .vmem S128x1024 .bf16 := win1_1.stage (cfg1.slots t 1)
abbrev hs1_1 : (ms1_1 t).IsWhole := hstage1_1 ((cfg1.slots t 1).cast nbuf1_1)
abbrev ms1_2 : Memref sig .tc .vmem S1264x1024 .f32 := win1_2.stage (cfg1.slots t 2)
abbrev hs1_2 : (ms1_2 t).IsWhole := hstage1_2 ((cfg1.slots t 2).cast nbuf1_2)
end
abbrev scM1 : Memref sig .tc .vmem S1264x1024 .f32 := Memref.whole cc1_scratch0
abbrev VS1 : View sig .tc .vmem S1264x1024 .f32 := scM1.view
abbrev VO1 : View sig .tc .vmem S1264x1024 .f32 := (Memref.whole cc1_stg2_0).view

section
variable {c : Dev nD} {sp s e} {m : Memref sig .tc sp s e} (h : m.IsWhole)

/-- A whole memref owned at X is the points-to of its elements at the one raw contents that reads X. -/
theorem ownsW1 (q : PosShare TreeShare) (X : s.Idx → Elt F e) :
    (owns c.tc m q X : sProp 𝕄) = (m.view.loc c.tc ↦[m.view.set]{q} h.unread X) := by
  unfold owns
  refine Entails.antisymm ?_ ?_ <;> change (_ : sProp 𝕄) ⊢ _
  · iintro ⟨%f, %hf, H⟩; obtain rfl := h.eq_unread hf; iexact H
  · iintro H; iexists _; isplitr; · ipureintro; exact h.read_unread X
    iexact H

/-- Writes that tile a whole memref leave it at the raw contents that read the writes' canon. -/
theorem writesW1 (f) (L : List (View.Piece (Elt F) s e)) (hL : View.Piece.tiledL L s.size = true) :
    m.view.writes (Elt F) f L = h.unread (View.canon L) :=
  h.eq_unread (View.read_writes_eq_canon _ _ _ (View.cover_of_tiledL L s.size hL))

/-- A load of all of a whole memref held at the raw contents that read X reads X. -/
theorem readW1 {off : Fin s.rank → ℕ} (hz : off = fun _ => 0) (inb) (X : s.Idx → Elt F e) :
    View.readAt (Elt F) m.view (Rect.unit off s.size inb).toLoadRect (h.unread X) = X := by
  rw [View.readAt_eq_ld, h.read_unread, View.ld_unit_zero hz]
end

theorem sc1_hz : (![0, 0] : Fin 2 → ℕ) = fun _ => 0 := funext fun a => by fin_cases a <;> rfl

variable {c : Dev nD} {i : grid1.Coords} {arg2 : Memref sig .tc .vmem S1264x128 .bf16} {harg2 : arg2.IsWhole} {arg3 : Memref sig .tc .vmem S128x1024 .bf16} {harg3 : arg3.IsWhole} {arg4 : Memref sig .tc .vmem S1264x1024 .f32} {harg4 : arg4.IsWhole} {arg5 : Memref sig .tc .vmem S1264x1024 .f32} {harg5 : arg5.IsWhole}
  (x0 : Vec F S1264x128 .bf16) (x1 : Vec F S128x1024 .bf16) (xs xi2 : Vec F S1264x1024 .f32)

/-- First point of a row block: the accumulator, held at anything, is zeroed and then updated. -/
theorem kernelRun1_A (E : Set ℕ) (K : PUnit → sProp 𝕄) (hc0 : cond1_0 i) (hc1 : ¬cond1_1 i) :
    iprop(owns c.tc arg2 fullShare x0 ∗ owns c.tc arg3 fullShare x1 ∗ owns c.tc arg4 fullShare xi2 ∗ (∃ d, owns c.tc arg5 fullShare d)
        ∗ (owns c.tc arg2 fullShare x0 ∗ owns c.tc arg3 fullShare x1 ∗ owns c.tc arg4 fullShare xi2 ∗ owns c.tc arg5 fullShare (k1_pay2 k1_pay1 x0 x1) -∗ K ⟨⟩))
      ⊢ wp frame (wpE defs₀ Variants.none c none) E (cc1__spmm_kernel i arg2 harg2 arg3 harg3 arg4 harg4 arg5 harg5) K := by
  simp (disch := assumption) only [cc1__spmm_kernel_eq_skeleton, ownsW1]; unfold cc1__spmm_kernel_skel
  iintro ⟨H0, H1, H2, ⟨%d, HS⟩, Hk⟩
  sl_exec (disch := assumption)
  sl_step
  rw [writesW1 harg5]
  · try sl_unfold_words
    rw [View.canon_cons_unit_zero sc1_hz, View.readCov_unit_zero _ sc1_hz]
    simp only [readW1 harg2 sc1_hz, readW1 harg3 sc1_hz]
    iapply Hk; iframe
  · sl_kernel_rfl

/-- Inner point: the accumulator is updated from what it held. -/
theorem kernelRun1_B (E : Set ℕ) (K : PUnit → sProp 𝕄) (hc0 : ¬cond1_0 i) (hc1 : ¬cond1_1 i) :
    iprop(owns c.tc arg2 fullShare x0 ∗ owns c.tc arg3 fullShare x1 ∗ owns c.tc arg4 fullShare xi2 ∗ owns c.tc arg5 fullShare xs
        ∗ (owns c.tc arg2 fullShare x0 ∗ owns c.tc arg3 fullShare x1 ∗ owns c.tc arg4 fullShare xi2 ∗ owns c.tc arg5 fullShare (k1_pay2 xs x0 x1) -∗ K ⟨⟩))
      ⊢ wp frame (wpE defs₀ Variants.none c none) E (cc1__spmm_kernel i arg2 harg2 arg3 harg3 arg4 harg4 arg5 harg5) K := by
  simp (disch := assumption) only [cc1__spmm_kernel_eq_skeleton, ownsW1]; unfold cc1__spmm_kernel_skel
  iintro ⟨H0, H1, H2, HS, Hk⟩
  sl_exec (disch := assumption)
  sl_step
  rw [writesW1 harg5]
  · try sl_unfold_words
    rw [View.canon_unit_zero sc1_hz]
    simp only [readW1 harg2 sc1_hz, readW1 harg3 sc1_hz, readW1 harg5 sc1_hz]
    iapply Hk; iframe
  · sl_kernel_rfl

/-- Last point of a row block: the accumulator is updated and copied to the output memref, held at anything. -/
theorem kernelRun1_C (E : Set ℕ) (K : PUnit → sProp 𝕄) (hc0 : ¬cond1_0 i) (hc1 : cond1_1 i) :
    iprop(owns c.tc arg2 fullShare x0 ∗ owns c.tc arg3 fullShare x1 ∗ (∃ d, owns c.tc arg4 fullShare d) ∗ owns c.tc arg5 fullShare xs
        ∗ (owns c.tc arg2 fullShare x0 ∗ owns c.tc arg3 fullShare x1 ∗ owns c.tc arg4 fullShare (k1_pay2 xs x0 x1) ∗ owns c.tc arg5 fullShare (k1_pay2 xs x0 x1) -∗ K ⟨⟩))
      ⊢ wp frame (wpE defs₀ Variants.none c none) E (cc1__spmm_kernel i arg2 harg2 arg3 harg3 arg4 harg4 arg5 harg5) K := by
  simp (disch := assumption) only [cc1__spmm_kernel_eq_skeleton, ownsW1]; unfold cc1__spmm_kernel_skel
  iintro ⟨H0, H1, ⟨%d, H2⟩, HS, Hk⟩
  sl_exec (disch := assumption)
  sl_step
  rw [writesW1 harg5, writesW1 harg4]
  · try sl_unfold_words
    rw [View.canon_unit_zero sc1_hz, View.canon_unit_zero sc1_hz, View.readCov_unit_zero _ sc1_hz]
    simp only [readW1 harg2 sc1_hz, readW1 harg3 sc1_hz, readW1 harg5 sc1_hz]
    iapply Hk; iframe
  all_goals sl_kernel_rfl

end Cert.KernelIdeal.Hand

end
-- ==== Proof.KI.R1.lean ====
import proofs.«426427_j36155034698037_1_alg».proof.Proof.KI.R1Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

noncomputable def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after position n: restarted from the zero fill where a row block begins, else updated. -/
def acc1 : (n : ℕ) → n < cfg1.N → Vec F S1264x1024 .f32
  | 0, hn => k1_pay2 (k1_pay1 (F := F)) (iblk1 V c 0 ⟨0, hn⟩) (iblk1 V c 1 ⟨0, hn⟩)
  | n + 1, hn => k1_pay2 (if (n + 1) % 79 = 0 then k1_pay1 (F := F) else acc1 n (Nat.lt_of_succ_lt hn))
      (iblk1 V c 0 ⟨n + 1, hn⟩) (iblk1 V c 1 ⟨n + 1, hn⟩)

/-- (The output block, the accumulator) after position n: both are the accumulator's value. -/
def outsAt1 (n : ℕ) (hn : n < cfg1.N) : Vec F S1264x1024 .f32 × Vec F S1264x1024 .f32 := (acc1 V c n hn, acc1 V c n hn)

theorem sc1_first (t : Fin cfg1.N) (h : t.val % 79 = 0) :
    (outsAt1 V c t.val t.isLt).2 = k1_pay2 (k1_pay1 (F := F)) (iblk1 V c 0 t) (iblk1 V c 1 t) := by
  obtain ⟨_ | n, hn⟩ := t
  · rfl
  · have h : (n + 1) % 79 = 0 := h
    show k1_pay2 (if (n + 1) % 79 = 0 then _ else _) _ _ = _
    rw [if_pos h]

theorem sc1_next (t : Fin cfg1.N) (h : t.val % 79 ≠ 0) :
    (outsAt1 V c t.val t.isLt).2 = k1_pay2 ((outsAt1 V c (t.val - 1) (by omega)).2) (iblk1 V c 0 t) (iblk1 V c 1 t) := by
  obtain ⟨_ | n, hn⟩ := t
  · exact absurd (Nat.zero_mod _) h
  · have h : ¬(n + 1) % 79 = 0 := h
    show k1_pay2 (if (n + 1) % 79 = 0 then _ else _) _ _ = _
    rw [if_neg h]; rfl

theorem out1_last (t : Fin cfg1.N) (h : t.val % 79 = 78) :
    (outsAt1 V c t.val t.isLt).1 = (outsAt1 V c t.val t.isLt).2 := rfl

/-- The kernel's other scoped buffers, left unopened. -/
abbrev rest1 : sProp 𝕄 :=
  Pipeline.scopedRestBut (Ix := Unit) (Name := ℕ) (U := UR sig nD τ) (Lvl := ℕ) (Val := Elt F) spec1 c [cc1_scratch0]

/-- The class's invariant with the accumulator split off the scoped rest. -/
theorem PhiA1_eq : (Pipeline.ΦA spec1 c : sProp 𝕄)
    = iprop(iprop((∃ d, owns c.tc scM1 fullShare d) ∗ rest1 (F := F) c) ∗ (∃ r, prngReg c r)) := by
  unfold Pipeline.ΦA
  rw [Pipeline.scopedRest_split_of_list spec1 c [cc1_scratch0] (by decide) (by decide)]
  simp only [bigSepL_singleton, scM1, owns_whole]; try rfl

/-- Before position n the accumulator holds what position n - 1 left (anything before the first). -/
def PhiS1 : (n : ℕ) → n ≤ cfg1.N → sProp 𝕄
  | 0, _ => Pipeline.ΦA spec1 c
  | n + 1, hn => iprop(iprop(owns c.tc scM1 fullShare (acc1 V c n hn) ∗ rest1 (F := F) c) ∗ (∃ r, prngReg c r))

/-- Forgetting the accumulator's contents gives the class's invariant back. -/
theorem PhiS1_forget (n : ℕ) (h : n ≤ cfg1.N) : PhiS1 V c n h ⊢ Pipeline.ΦA spec1 c := by
  cases n with
  | zero => exact .rfl
  | succ n =>
    rw [PhiA1_eq]; unfold PhiS1
    iintro ⟨⟨HS, HR⟩, Hg⟩
    iframe HR Hg
    iexists _; iexact HS

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (w : Fin cfg1.W) : (dat1 V c).A w = V c (Pipeline.arrRef spec1 w) := rfl
theorem after1_2 (t : Fin cfg1.N) : (dat1 V c).after 2 t = (outsAt1 V c t.val t.isLt).1 := rfl
theorem q_eq1 (w : Fin cfg1.W) : (dat1 V c).q w = fullShare := rfl
theorem owed_eq1 (t : Fin (cfg1.N + 1)) : (dat1 V c).owed t = 0 := rfl

theorem before1_0 (t : Fin cfg1.N) (d) : (dat1 V c).before 0 t d = iblk1 V c 0 t :=
  ((dat1 V c).before_fetched 0 t (fetch1_0 t) d).trans (by unfold Dat.fetched Dat.blockOf iblk1; rw [A_eq1]; try rfl)
theorem before1_1 (t : Fin cfg1.N) (d) : (dat1 V c).before 1 t d = iblk1 V c 1 t :=
  ((dat1 V c).before_fetched 1 t (fetch1_1 t) d).trans (by unfold Dat.fetched Dat.blockOf iblk1; rw [A_eq1]; try rfl)

def bodyPre1 (t : Fin cfg1.N) : sProp 𝕄 :=
  iprop((dat1 V c).Φ t.castSucc ∗ (dat1 V c).owesAt () t.castSucc
    ∗ (∃ d, owns c.tc (ms1_0 t) fullShare ((dat1 V c).before 0 t d))
    ∗ (∃ d, owns c.tc (ms1_1 t) fullShare ((dat1 V c).before 1 t d))
    ∗ (∃ d, owns c.tc (ms1_2 t) fullShare ((dat1 V c).before 2 t d)))

def bodyPost1 (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

/-- After the first point the invariant holds the accumulator at what the point before left. -/
theorem PhiS1_at (t : Fin cfg1.N) (h : t.val ≠ 0) : (dat1 V c).Φ t.castSucc
    = iprop(iprop(owns c.tc scM1 fullShare (outsAt1 V c (t.val - 1) (by omega)).2 ∗ rest1 (F := F) c) ∗ (∃ r, prngReg c r)) := by
  obtain ⟨_ | n, hn⟩ := t
  · exact absurd rfl h
  · rfl

/-- Each of the three cases of a point (first, inner, last of its row block) turns the invariant before it into the one after. -/
theorem sound_body1 (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = iprop(iprop(owns c.tc scM1 fullShare (outsAt1 V c t.val t.isLt).2 ∗ rest1 (F := F) c) ∗ (∃ r, prngReg c r)) from rfl,
    show (dat1 V c).leavesExact 0 t = owns c.tc (ms1_0 t) fullShare (iblk1 V c 0 t) from by
      unfold Dat.leavesExact; rw [liveAt1_0 t]; rfl,
    show (dat1 V c).leavesExact 1 t = owns c.tc (ms1_1 t) fullShare (iblk1 V c 1 t) from by
      unfold Dat.leavesExact; rw [liveAt1_1 t]; rfl]
  by_cases h1 : t.val % 79 = 78
  · have h0 : t.val % 79 ≠ 0 := by omega
    rw [show (dat1 V c).leavesExact 2 t = owns c.tc (ms1_2 t) fullShare (outsAt1 V c t.val t.isLt).2 from by
      unfold Dat.leavesExact; rw [liveAt1_2 t ((hcond1_1 t).mpr h1)]; rfl,
      PhiS1_at V c t (fun e => h0 (by rw [e])), sc1_next V c t h0]
    iintro ⟨⟨⟨HS, HR⟩, Hg⟩, Ho, ⟨%d0, H0⟩, ⟨%d1, H1⟩, ⟨%d2, H2⟩⟩
    iapply (kernelRun1_C _ _ _ Set.univ _ (mt (hcond1_0 t).mp h0) ((hcond1_1 t).mpr h1))
    iframe H0 H1 HS
    isplitl [H2]; · iexists _; iexact H2
    iintro ⟨H0, H1, H2, HS⟩
    iframe
  · rw [Dat.leavesExact_idle (dat1 V c) 2 t (idleAt1_2 t (mt (hcond1_1 t).mp h1)) (noFlush1_2 t (mt (hcond1_1 t).mp h1))]
    by_cases h0 : t.val % 79 = 0
    · refine (sep_mono_left (PhiS1_forget V c t.castSucc.val _)).trans ?_
      rw [PhiA1_eq, sc1_first V c t h0]
      iintro ⟨⟨⟨HS, HR⟩, Hg⟩, Ho, ⟨%d0, H0⟩, ⟨%d1, H1⟩, ⟨%d2, H2⟩⟩
      iapply (kernelRun1_A _ _ _ Set.univ _ ((hcond1_0 t).mpr h0) (mt (hcond1_1 t).mp h1))
      iframe H0 H1 H2 HS
      iintro ⟨H0, H1, H2, HS⟩
      iframe
      iexists _; iexact H2
    · rw [PhiS1_at V c t (fun e => h0 (by rw [e])), sc1_next V c t h0]
      iintro ⟨⟨⟨HS, HR⟩, Hg⟩, Ho, ⟨%d0, H0⟩, ⟨%d1, H1⟩, ⟨%d2, H2⟩⟩
      iapply (kernelRun1_B _ _ _ _ Set.univ _ (mt (hcond1_0 t).mp h0) (mt (hcond1_1 t).mp h1))
      iframe H0 H1 H2 HS
      iintro ⟨H0, H1, H2, HS⟩
      iframe
      iexists _; iexact H2

theorem body_obligation1 : BodyObligation (dat1 (F := F) V c) (defs₀ (F := F)) Variants.none () Set.univ := fun t => by
  rw [bigSep_W1, bigSep_W1]
  exact sound_body1 V c t

theorem hin1 : Pipeline.ΦA spec1 c ⊢ (dat1 V c).Φ 0 := .rfl

theorem hout1 : (dat1 V c).Φ (Fin.last cfg1.N) ⊢ Pipeline.ΦA spec1 c := PhiS1_forget V c (Fin.last cfg1.N).val _

end Cert.KernelIdeal.Hand

end
-- ==== Proof.KI.R2.lean ====
import proofs.«426427_j36155034698037_1_alg».proof.Proof.Gen.KernelIdeal.Launch
import proofs.«426427_j36155034698037_1_alg».proof.Proof.Gen.KernelIdeal.Skeleton
import proofs.«426427_j36155034698037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic Idealize.SL.RA
open Idealize.ShloMosaic.Pipeline (Dat BodyObligation)

variable {F : FTy → Type} [FloatOps F]

variable (V : (c : Dev nD) → (b : Ref sig .tc) → Buf (Elt F) ((c : Thread nD τ).loc b))

/-- Window `w`'s block at point `t` of its array at the entry contents `V`. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1264x1024 := Rect.unit (s := S1264x1024) ![0, 0] S1264x1024.size inb_S1264x1024_S1264x1024_0_0
abbrev r2_1 : Rect S1024x256 := Rect.unit (s := S1024x256) ![0, 0] S1024x256.size inb_S1024x256_S1024x256_0_0
abbrev r2_2 : Rect S1x256 := Rect.unit (s := S1x256) ![0, 0] S1x256.size inb_S1x256_S1x256_0_0
abbrev r2_3 : Rect S1264x256 := Rect.unit (s := S1264x256) ![0, 0] S1264x256.size inb_S1264x256_S1264x256_0_0

/-- The output block from the three input blocks: one store of `x · W + bias` over the whole of it. -/
def out2_3 (x0 : Vec F S1264x1024 .bf16) (x1 : Vec F S1024x256 .bf16) (x2 : Vec F S1x256 .f32) : Vec F S1264x256 .f32 :=
  View.canon [⟨r2_3, k2_pay1 (View.ld x0 r2_0) (View.ld x1 r2_1) (View.ld x2 r2_2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) :
    (dat2 V c).after 3 t = out2_3 (iblk2 V c 0 t) (iblk2 V c 1 t) (iblk2 V c 2 t) := by dsimp only [dat2]

/-- On an input window `before` is `after`: both are the window's block of the entry array. -/
theorem before2 (c : Dev nD) (w : Fin cfg2.W) (hw : (cfg2.win w).isOut = false) :
    ∀ t d, (dat2 V c).before w t d = (dat2 V c).after w t := by
  fin_cases w <;> first
    | exact absurd hw (by decide)
    | exact (dat2 V c).before_in_eq_fetched _ rfl (fun _ => rfl) (fun _ _ _ => rfl) (fun _ => rfl)

/-- The body reads the three input blocks and stores `out2_3` of them over the whole output block. -/
theorem body_obligation2 (c : Dev nD) : BodyObligation (dat2 (F := F) V c) (defs₀ (F := F)) Variants.none () Set.univ := fun t => by
  rw [bigSep_W2, bigSep_W2]
  sl_whnfR [defs₀, Defs.onTc]
  simp only [cc2__matmul_bias_kernel_eq_skeleton]; unfold cc2__matmul_bias_kernel_skel owns
  rewrite [show (dat2 V c).Φ t.succ = (dat2 V c).Φ t.castSucc from rfl,
    show (dat2 V c).owesAt () t.succ = (dat2 V c).owesAt () t.castSucc from rfl]
  iintro ⟨HΦ, Ho, ⟨%d0, %f0, %h0, H0⟩, ⟨%d1, %f1, %h1, H1⟩, ⟨%d2, %f2, %h2, H2⟩, ⟨%d3, %f3, -, H3⟩⟩
  have e0 : _ = iblk2 V c 0 t := h0.trans (before2 V c 0 rfl t d0)
  have e1 : _ = iblk2 V c 1 t := h1.trans (before2 V c 1 rfl t d1)
  have e2 : _ = iblk2 V c 2 t := h2.trans (before2 V c 2 rfl t d2)
  sl_exec
  sl_step
  iframe HΦ Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists _; isplitr
  swap; · iexact H3
  ipureintro
  rw [after2_3, ← e0, ← e1, ← e2]
  exact View.read_writes_eq_canon _ _ _ (View.cover_of_tiled _ r2_3.size rfl)

end Cert.KernelIdeal.Hand

end
-- ==== Proof.KI.R3Runs.lean ====
import proofs.«426427_j36155034698037_1_alg».proof.Proof.Gen.KernelIdeal.Launch
import proofs.«426427_j36155034698037_1_alg».proof.Proof.Gen.KernelIdeal.Skeleton
import proofs.«426427_j36155034698037_1_alg».proof.Proof.Gen.KernelIdeal.Points
import Idealize.ShloMosaic.Lib.Pipeline.FrameBody
import Idealize.ShloMosaic.Lib.Ring
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond3_0 (i : grid3.Coords) : Prop :=
  (Scalar.cmpi .ne (Scalar.extui (Scalar.cmpi .eq (BitVec.ofNat 32 (i 1).val) 0#32)) 0#32) = 1#1
theorem hcond3_0 : ∀ t : Fin cfg3.N, cond3_0 (grid3.coords t) ↔ t.val % 79 = 0 := by decide +kernel

abbrev cond3_1 (i : grid3.Coords) : Prop := k3_cond2 i = 1#1
theorem hcond3_1 : ∀ t : Fin cfg3.N, cond3_1 (grid3.coords t) ↔ t.val % 79 = 78 := by decide +kernel

theorem liveAt3_2 : ∀ t : Fin cfg3.N, cond3_1 (grid3.coords t) → cfg3.idle 2 (grid3.coords t) = false := by decide +kernel
theorem idleAt3_2 : ∀ t : Fin cfg3.N, ¬cond3_1 (grid3.coords t) → cfg3.idle 2 (grid3.coords t) = true := by decide +kernel
section
variable (t : Fin cfg3.N)
theorem liveAt3_0 : cfg3.idle 0 (grid3.coords t) = false := rfl
theorem liveAt3_1 : cfg3.idle 1 (grid3.coords t) = false := rfl
theorem noFlush3_2 (h : ¬cond3_1 (grid3.coords t)) : (cfg3.win 2).flush t = false :=
  Bool.eq_false_iff.mpr fun hf => h ((hcond3_1 t).mpr ((flush3_2 t).mp hf))

abbrev ms3_0 : Memref sig .tc .vmem S1264x128 .bf16 := win3_0.stage (cfg3.slots t 0)
abbrev hs3_0 : (ms3_0 t).IsWhole := hstage3_0 ((cfg3.slots t 0).cast nbuf3_0)
abbrev ms3_1 : Memref sig .tc .vmem S128x256 .bf16 := win3_1.stage (cfg3.slots t 1)
abbrev hs3_1 : (ms3_1 t).IsWhole := hstage3_1 ((cfg3.slots t 1).cast nbuf3_1)
abbrev ms3_2 : Memref sig .tc .vmem S1264x256 .f32 := win3_2.stage (cfg3.slots t 2)
abbrev hs3_2 : (ms3_2 t).IsWhole := hstage3_2 ((cfg3.slots t 2).cast nbuf3_2)
end
abbrev scM3 : Memref sig .tc .vmem S1264x256 .f32 := Memref.whole cc3_scratch0
abbrev VS3 : View sig .tc .vmem S1264x256 .f32 := scM3.view
abbrev VO3 : View sig .tc .vmem S1264x256 .f32 := (Memref.whole cc3_stg2_0).view

section
variable {c : Dev nD} {sp s e} {m : Memref sig .tc sp s e} (h : m.IsWhole)

/-- A whole memref owned at X is the points-to of its elements at the one raw contents that reads X. -/
theorem ownsW3 (q : PosShare TreeShare) (X : s.Idx → Elt F e) :
    (owns c.tc m q X : sProp 𝕄) = (m.view.loc c.tc ↦[m.view.set]{q} h.unread X) := by
  unfold owns
  refine Entails.antisymm ?_ ?_ <;> change (_ : sProp 𝕄) ⊢ _
  · iintro ⟨%f, %hf, H⟩; obtain rfl := h.eq_unread hf; iexact H
  · iintro H; iexists _; isplitr; · ipureintro; exact h.read_unread X
    iexact H

/-- Writes that tile a whole memref leave it at the raw contents that read the writes' canon. -/
theorem writesW3 (f) (L : List (View.Piece (Elt F) s e)) (hL : View.Piece.tiledL L s.size = true) :
    m.view.writes (Elt F) f L = h.unread (View.canon L) :=
  h.eq_unread (View.read_writes_eq_canon _ _ _ (View.cover_of_tiledL L s.size hL))

/-- A load of all of a whole memref held at the raw contents that read X reads X. -/
theorem readW3 {off : Fin s.rank → ℕ} (hz : off = fun _ => 0) (inb) (X : s.Idx → Elt F e) :
    View.readAt (Elt F) m.view (Rect.unit off s.size inb).toLoadRect (h.unread X) = X := by
  rw [View.readAt_eq_ld, h.read_unread, View.ld_unit_zero hz]
end

theorem sc3_hz : (![0, 0] : Fin 2 → ℕ) = fun _ => 0 := funext fun a => by fin_cases a <;> rfl

variable {c : Dev nD} {i : grid3.Coords} {arg2 : Memref sig .tc .vmem S1264x128 .bf16} {harg2 : arg2.IsWhole} {arg3 : Memref sig .tc .vmem S128x256 .bf16} {harg3 : arg3.IsWhole} {arg4 : Memref sig .tc .vmem S1264x256 .f32} {harg4 : arg4.IsWhole} {arg5 : Memref sig .tc .vmem S1264x256 .f32} {harg5 : arg5.IsWhole}
  (x0 : Vec F S1264x128 .bf16) (x1 : Vec F S128x256 .bf16) (xs xi2 : Vec F S1264x256 .f32)

/-- First point of a row block: the accumulator, held at anything, is zeroed and then updated. -/
theorem kernelRun3_A (E : Set ℕ) (K : PUnit → sProp 𝕄) (hc0 : cond3_0 i) (hc1 : ¬cond3_1 i) :
    iprop(owns c.tc arg2 fullShare x0 ∗ owns c.tc arg3 fullShare x1 ∗ owns c.tc arg4 fullShare xi2 ∗ (∃ d, owns c.tc arg5 fullShare d)
        ∗ (owns c.tc arg2 fullShare x0 ∗ owns c.tc arg3 fullShare x1 ∗ owns c.tc arg4 fullShare xi2 ∗ owns c.tc arg5 fullShare (k3_pay2 k3_pay1 x0 x1) -∗ K ⟨⟩))
      ⊢ wp frame (wpE defs₀ Variants.none c none) E (cc3__spmm_kernel i arg2 harg2 arg3 harg3 arg4 harg4 arg5 harg5) K := by
  simp (disch := assumption) only [cc3__spmm_kernel_eq_skeleton, ownsW3]; unfold cc3__spmm_kernel_skel
  iintro ⟨H0, H1, H2, ⟨%d, HS⟩, Hk⟩
  sl_exec (disch := assumption)
  sl_step
  rw [writesW3 harg5]
  · try sl_unfold_words
    rw [View.canon_cons_unit_zero sc3_hz, View.readCov_unit_zero _ sc3_hz]
    simp only [readW3 harg2 sc3_hz, readW3 harg3 sc3_hz]
    iapply Hk; iframe
  · sl_kernel_rfl

/-- Inner point: the accumulator is updated from what it held. -/
theorem kernelRun3_B (E : Set ℕ) (K : PUnit → sProp 𝕄) (hc0 : ¬cond3_0 i) (hc1 : ¬cond3_1 i) :
    iprop(owns c.tc arg2 fullShare x0 ∗ owns c.tc arg3 fullShare x1 ∗ owns c.tc arg4 fullShare xi2 ∗ owns c.tc arg5 fullShare xs
        ∗ (owns c.tc arg2 fullShare x0 ∗ owns c.tc arg3 fullShare x1 ∗ owns c.tc arg4 fullShare xi2 ∗ owns c.tc arg5 fullShare (k3_pay2 xs x0 x1) -∗ K ⟨⟩))
      ⊢ wp frame (wpE defs₀ Variants.none c none) E (cc3__spmm_kernel i arg2 harg2 arg3 harg3 arg4 harg4 arg5 harg5) K := by
  simp (disch := assumption) only [cc3__spmm_kernel_eq_skeleton, ownsW3]; unfold cc3__spmm_kernel_skel
  iintro ⟨H0, H1, H2, HS, Hk⟩
  sl_exec (disch := assumption)
  sl_step
  rw [writesW3 harg5]
  · try sl_unfold_words
    rw [View.canon_unit_zero sc3_hz]
    simp only [readW3 harg2 sc3_hz, readW3 harg3 sc3_hz, readW3 harg5 sc3_hz]
    iapply Hk; iframe
  · sl_kernel_rfl

/-- Last point of a row block: the accumulator is updated and copied to the output memref, held at anything. -/
theorem kernelRun3_C (E : Set ℕ) (K : PUnit → sProp 𝕄) (hc0 : ¬cond3_0 i) (hc1 : cond3_1 i) :
    iprop(owns c.tc arg2 fullShare x0 ∗ owns c.tc arg3 fullShare x1 ∗ (∃ d, owns c.tc arg4 fullShare d) ∗ owns c.tc arg5 fullShare xs
        ∗ (owns c.tc arg2 fullShare x0 ∗ owns c.tc arg3 fullShare x1 ∗ owns c.tc arg4 fullShare (k3_pay2 xs x0 x1) ∗ owns c.tc arg5 fullShare (k3_pay2 xs x0 x1) -∗ K ⟨⟩))
      ⊢ wp frame (wpE defs₀ Variants.none c none) E (cc3__spmm_kernel i arg2 harg2 arg3 harg3 arg4 harg4 arg5 harg5) K := by
  simp (disch := assumption) only [cc3__spmm_kernel_eq_skeleton, ownsW3]; unfold cc3__spmm_kernel_skel
  iintro ⟨H0, H1, ⟨%d, H2⟩, HS, Hk⟩
  sl_exec (disch := assumption)
  sl_step
  rw [writesW3 harg5, writesW3 harg4]
  · try sl_unfold_words
    rw [View.canon_unit_zero sc3_hz, View.canon_unit_zero sc3_hz, View.readCov_unit_zero _ sc3_hz]
    simp only [readW3 harg2 sc3_hz, readW3 harg3 sc3_hz, readW3 harg5 sc3_hz]
    iapply Hk; iframe
  all_goals sl_kernel_rfl

end Cert.KernelIdeal.Hand

end
-- ==== Proof.KI.R3.lean ====
import proofs.«426427_j36155034698037_1_alg».proof.Proof.KI.R3Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

noncomputable def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after position n: restarted from the zero fill where a row block begins, else updated. -/
def acc3 : (n : ℕ) → n < cfg3.N → Vec F S1264x256 .f32
  | 0, hn => k3_pay2 (k3_pay1 (F := F)) (iblk3 V c 0 ⟨0, hn⟩) (iblk3 V c 1 ⟨0, hn⟩)
  | n + 1, hn => k3_pay2 (if (n + 1) % 79 = 0 then k3_pay1 (F := F) else acc3 n (Nat.lt_of_succ_lt hn))
      (iblk3 V c 0 ⟨n + 1, hn⟩) (iblk3 V c 1 ⟨n + 1, hn⟩)

/-- (The output block, the accumulator) after position n: both are the accumulator's value. -/
def outsAt3 (n : ℕ) (hn : n < cfg3.N) : Vec F S1264x256 .f32 × Vec F S1264x256 .f32 := (acc3 V c n hn, acc3 V c n hn)

theorem sc3_first (t : Fin cfg3.N) (h : t.val % 79 = 0) :
    (outsAt3 V c t.val t.isLt).2 = k3_pay2 (k3_pay1 (F := F)) (iblk3 V c 0 t) (iblk3 V c 1 t) := by
  obtain ⟨_ | n, hn⟩ := t
  · rfl
  · have h : (n + 1) % 79 = 0 := h
    show k3_pay2 (if (n + 1) % 79 = 0 then _ else _) _ _ = _
    rw [if_pos h]

theorem sc3_next (t : Fin cfg3.N) (h : t.val % 79 ≠ 0) :
    (outsAt3 V c t.val t.isLt).2 = k3_pay2 ((outsAt3 V c (t.val - 1) (by omega)).2) (iblk3 V c 0 t) (iblk3 V c 1 t) := by
  obtain ⟨_ | n, hn⟩ := t
  · exact absurd (Nat.zero_mod _) h
  · have h : ¬(n + 1) % 79 = 0 := h
    show k3_pay2 (if (n + 1) % 79 = 0 then _ else _) _ _ = _
    rw [if_neg h]; rfl

theorem out3_last (t : Fin cfg3.N) (h : t.val % 79 = 78) :
    (outsAt3 V c t.val t.isLt).1 = (outsAt3 V c t.val t.isLt).2 := rfl

/-- The kernel's other scoped buffers, left unopened. -/
abbrev rest3 : sProp 𝕄 :=
  Pipeline.scopedRestBut (Ix := Unit) (Name := ℕ) (U := UR sig nD τ) (Lvl := ℕ) (Val := Elt F) spec3 c [cc3_scratch0]

/-- The class's invariant with the accumulator split off the scoped rest. -/
theorem PhiA3_eq : (Pipeline.ΦA spec3 c : sProp 𝕄)
    = iprop(iprop((∃ d, owns c.tc scM3 fullShare d) ∗ rest3 (F := F) c) ∗ (∃ r, prngReg c r)) := by
  unfold Pipeline.ΦA
  rw [Pipeline.scopedRest_split_of_list spec3 c [cc3_scratch0] (by decide) (by decide)]
  simp only [bigSepL_singleton, scM3, owns_whole]; try rfl

/-- Before position n the accumulator holds what position n - 1 left (anything before the first). -/
def PhiS3 : (n : ℕ) → n ≤ cfg3.N → sProp 𝕄
  | 0, _ => Pipeline.ΦA spec3 c
  | n + 1, hn => iprop(iprop(owns c.tc scM3 fullShare (acc3 V c n hn) ∗ rest3 (F := F) c) ∗ (∃ r, prngReg c r))

/-- Forgetting the accumulator's contents gives the class's invariant back. -/
theorem PhiS3_forget (n : ℕ) (h : n ≤ cfg3.N) : PhiS3 V c n h ⊢ Pipeline.ΦA spec3 c := by
  cases n with
  | zero => exact .rfl
  | succ n =>
    rw [PhiA3_eq]; unfold PhiS3
    iintro ⟨⟨HS, HR⟩, Hg⟩
    iframe HR Hg
    iexists _; iexact HS

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (w : Fin cfg3.W) : (dat3 V c).A w = V c (Pipeline.arrRef spec3 w) := rfl
theorem after3_2 (t : Fin cfg3.N) : (dat3 V c).after 2 t = (outsAt3 V c t.val t.isLt).1 := rfl
theorem q_eq3 (w : Fin cfg3.W) : (dat3 V c).q w = fullShare := rfl
theorem owed_eq3 (t : Fin (cfg3.N + 1)) : (dat3 V c).owed t = 0 := rfl

theorem before3_0 (t : Fin cfg3.N) (d) : (dat3 V c).before 0 t d = iblk3 V c 0 t :=
  ((dat3 V c).before_fetched 0 t (fetch3_0 t) d).trans (by unfold Dat.fetched Dat.blockOf iblk3; rw [A_eq3]; try rfl)
theorem before3_1 (t : Fin cfg3.N) (d) : (dat3 V c).before 1 t d = iblk3 V c 1 t :=
  ((dat3 V c).before_fetched 1 t (fetch3_1 t) d).trans (by unfold Dat.fetched Dat.blockOf iblk3; rw [A_eq3]; try rfl)

def bodyPre3 (t : Fin cfg3.N) : sProp 𝕄 :=
  iprop((dat3 V c).Φ t.castSucc ∗ (dat3 V c).owesAt () t.castSucc
    ∗ (∃ d, owns c.tc (ms3_0 t) fullShare ((dat3 V c).before 0 t d))
    ∗ (∃ d, owns c.tc (ms3_1 t) fullShare ((dat3 V c).before 1 t d))
    ∗ (∃ d, owns c.tc (ms3_2 t) fullShare ((dat3 V c).before 2 t d)))

def bodyPost3 (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t)

/-- After the first point the invariant holds the accumulator at what the point before left. -/
theorem PhiS3_at (t : Fin cfg3.N) (h : t.val ≠ 0) : (dat3 V c).Φ t.castSucc
    = iprop(iprop(owns c.tc scM3 fullShare (outsAt3 V c (t.val - 1) (by omega)).2 ∗ rest3 (F := F) c) ∗ (∃ r, prngReg c r)) := by
  obtain ⟨_ | n, hn⟩ := t
  · exact absurd rfl h
  · rfl

/-- Each of the three cases of a point (first, inner, last of its row block) turns the invariant before it into the one after. -/
theorem sound_body3 (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = iprop(iprop(owns c.tc scM3 fullShare (outsAt3 V c t.val t.isLt).2 ∗ rest3 (F := F) c) ∗ (∃ r, prngReg c r)) from rfl,
    show (dat3 V c).leavesExact 0 t = owns c.tc (ms3_0 t) fullShare (iblk3 V c 0 t) from by
      unfold Dat.leavesExact; rw [liveAt3_0 t]; rfl,
    show (dat3 V c).leavesExact 1 t = owns c.tc (ms3_1 t) fullShare (iblk3 V c 1 t) from by
      unfold Dat.leavesExact; rw [liveAt3_1 t]; rfl]
  by_cases h1 : t.val % 79 = 78
  · have h0 : t.val % 79 ≠ 0 := by omega
    rw [show (dat3 V c).leavesExact 2 t = owns c.tc (ms3_2 t) fullShare (outsAt3 V c t.val t.isLt).2 from by
      unfold Dat.leavesExact; rw [liveAt3_2 t ((hcond3_1 t).mpr h1)]; rfl,
      PhiS3_at V c t (fun e => h0 (by rw [e])), sc3_next V c t h0]
    iintro ⟨⟨⟨HS, HR⟩, Hg⟩, Ho, ⟨%d0, H0⟩, ⟨%d1, H1⟩, ⟨%d2, H2⟩⟩
    iapply (kernelRun3_C _ _ _ Set.univ _ (mt (hcond3_0 t).mp h0) ((hcond3_1 t).mpr h1))
    iframe H0 H1 HS
    isplitl [H2]; · iexists _; iexact H2
    iintro ⟨H0, H1, H2, HS⟩
    iframe
  · rw [Dat.leavesExact_idle (dat3 V c) 2 t (idleAt3_2 t (mt (hcond3_1 t).mp h1)) (noFlush3_2 t (mt (hcond3_1 t).mp h1))]
    by_cases h0 : t.val % 79 = 0
    · refine (sep_mono_left (PhiS3_forget V c t.castSucc.val _)).trans ?_
      rw [PhiA3_eq, sc3_first V c t h0]
      iintro ⟨⟨⟨HS, HR⟩, Hg⟩, Ho, ⟨%d0, H0⟩, ⟨%d1, H1⟩, ⟨%d2, H2⟩⟩
      iapply (kernelRun3_A _ _ _ Set.univ _ ((hcond3_0 t).mpr h0) (mt (hcond3_1 t).mp h1))
      iframe H0 H1 H2 HS
      iintro ⟨H0, H1, H2, HS⟩
      iframe
      iexists _; iexact H2
    · rw [PhiS3_at V c t (fun e => h0 (by rw [e])), sc3_next V c t h0]
      iintro ⟨⟨⟨HS, HR⟩, Hg⟩, Ho, ⟨%d0, H0⟩, ⟨%d1, H1⟩, ⟨%d2, H2⟩⟩
      iapply (kernelRun3_B _ _ _ _ Set.univ _ (mt (hcond3_0 t).mp h0) (mt (hcond3_1 t).mp h1))
      iframe H0 H1 H2 HS
      iintro ⟨H0, H1, H2, HS⟩
      iframe
      iexists _; iexact H2

theorem body_obligation3 : BodyObligation (dat3 (F := F) V c) (defs₀ (F := F)) Variants.none () Set.univ := fun t => by
  rw [bigSep_W3, bigSep_W3]
  exact sound_body3 V c t

theorem hin3 : Pipeline.ΦA spec3 c ⊢ (dat3 V c).Φ 0 := .rfl

theorem hout3 : (dat3 V c).Φ (Fin.last cfg3.N) ⊢ Pipeline.ΦA spec3 c := PhiS3_forget V c (Fin.last cfg3.N).val _

end Cert.KernelIdeal.Hand

end
-- ==== Proof.KI.Fold.lean ====
import proofs.«426427_j36155034698037_1_alg».proof.Proof.KI.R0
import proofs.«426427_j36155034698037_1_alg».proof.Proof.KI.R1
import proofs.«426427_j36155034698037_1_alg».proof.Proof.KI.R2
import proofs.«426427_j36155034698037_1_alg».proof.Proof.KI.R3
import proofs.«426427_j36155034698037_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.ShloMosaic.Pipeline (withArrays arrRef)

variable {F : FTy → Type} [FloatOps F]
variable (m : (ℓ : Loc nD τ sig) → Buf (Elt F) ℓ) (ρ : Dev nD → PrngReg)

-- The contents `W` read at a reference `b : Ref sig .tc`.
abbrev atTc (W : Dev nD → Valuation τ sig (Elt F)) :
    (c : Dev nD) → (b : Ref sig .tc) → Buf (Elt F) ((c : Thread nD τ).loc b) := fun c b => W c b

-- `WJ`: the buffer contents before item `J` of @main, each obtained from the one before by that item's action.
abbrev W0 : Dev nD → Valuation τ sig (Elt F) := fun c b => (s₀ m ρ).mem ((c : Dev nD), b)
abbrev W1 (c : Dev nD) := StableHlo.after hostOps0 (W0 m ρ c)
abbrev W2 (c : Dev nD) := StableHlo.after hostOps0_1 (W1 m ρ c)
abbrev W3 (c : Dev nD) := StableHlo.after hostOps0_2 (W2 m ρ c)
abbrev V3 := atTc (W3 m ρ)
-- After a region: its windows' arrays at the proof data's final contents, every other buffer as before.
def W4 (c : Dev nD) := withArrays spec0 c (W3 m ρ c) fun w => (dat0 (V3 m ρ) c).arrAt w cfg0.N
abbrev W5 (c : Dev nD) := StableHlo.after hostOps1 (W4 m ρ c)
abbrev V5 := atTc (W5 m ρ)
def W6 (c : Dev nD) := withArrays spec1 c (W5 m ρ c) fun w => (dat1 (V5 m ρ) c).arrAt w cfg1.N
abbrev V6 := atTc (W6 m ρ)
abbrev W7 (c : Dev nD) := StableHlo.after hostOps2 (W6 m ρ c)
abbrev W8 (c : Dev nD) := StableHlo.after hostOps2_1 (W7 m ρ c)
abbrev V8 := atTc (W8 m ρ)
abbrev W9 (c : Dev nD) := StableHlo.after hostOps2_2 (W8 m ρ c)
abbrev W10 (c : Dev nD) := StableHlo.after hostOps2_3 (W9 m ρ c)
abbrev W11 (c : Dev nD) := StableHlo.after hostOps2_4 (W10 m ρ c)
abbrev V11 := atTc (W11 m ρ)
def W12 (c : Dev nD) := withArrays spec2 c (W11 m ρ c) fun w => (dat2 (V11 m ρ) c).arrAt w cfg2.N
abbrev W13 (c : Dev nD) := StableHlo.after hostOps3 (W12 m ρ c)
abbrev V13 := atTc (W13 m ρ)
def W14 (c : Dev nD) := withArrays spec3 c (W13 m ρ c) fun w => (dat3 (V13 m ρ) c).arrAt w cfg3.N
abbrev V14 := atTc (W14 m ρ)
abbrev W15 (c : Dev nD) := StableHlo.after hostOps4 (W14 m ρ c)

theorem W4_arr (c : Dev nD) (w : Fin cfg0.W) :
    W4 m ρ c (Proc.devRef .tc (arrRef spec0 w)) = (dat0 (V3 m ρ) c).arrAt w cfg0.N :=
  Pipeline.withArrays_arr spec0 launch0.win.arr_inj c _ _ w
theorem W4_of_ne (c : Dev nD) (b : Ref sig .tc) (hb : ∀ w, arrRef spec0 w ≠ b) :
    W4 m ρ c (Proc.devRef .tc b) = W3 m ρ c (Proc.devRef .tc b) :=
  Pipeline.withArrays_of_ne spec0 c _ _ b hb
theorem W6_arr (c : Dev nD) (w : Fin cfg1.W) :
    W6 m ρ c (Proc.devRef .tc (arrRef spec1 w)) = (dat1 (V5 m ρ) c).arrAt w cfg1.N :=
  Pipeline.withArrays_arr spec1 launch1.win.arr_inj c _ _ w
theorem W6_of_ne (c : Dev nD) (b : Ref sig .tc) (hb : ∀ w, arrRef spec1 w ≠ b) :
    W6 m ρ c (Proc.devRef .tc b) = W5 m ρ c (Proc.devRef .tc b) :=
  Pipeline.withArrays_of_ne spec1 c _ _ b hb
theorem W12_arr (c : Dev nD) (w : Fin cfg2.W) :
    W12 m ρ c (Proc.devRef .tc (arrRef spec2 w)) = (dat2 (V11 m ρ) c).arrAt w cfg2.N :=
  Pipeline.withArrays_arr spec2 launch2.win.arr_inj c _ _ w
theorem W12_of_ne (c : Dev nD) (b : Ref sig .tc) (hb : ∀ w, arrRef spec2 w ≠ b) :
    W12 m ρ c (Proc.devRef .tc b) = W11 m ρ c (Proc.devRef .tc b) :=
  Pipeline.withArrays_of_ne spec2 c _ _ b hb
theorem W14_arr (c : Dev nD) (w : Fin cfg3.W) :
    W14 m ρ c (Proc.devRef .tc (arrRef spec3 w)) = (dat3 (V13 m ρ) c).arrAt w cfg3.N :=
  Pipeline.withArrays_arr spec3 launch3.win.arr_inj c _ _ w
theorem W14_of_ne (c : Dev nD) (b : Ref sig .tc) (hb : ∀ w, arrRef spec3 w ≠ b) :
    W14 m ρ c (Proc.devRef .tc b) = W13 m ρ c (Proc.devRef .tc b) :=
  Pipeline.withArrays_of_ne spec3 c _ _ b hb

-- No host stretch writes `r` and no window of any region sits on it.
abbrev Untouched (r : Ref sig .tc) : Prop :=
  (r ∉ hostOps0_W ∧ r ∉ hostOps0_1_W ∧ r ∉ hostOps0_2_W ∧ r ∉ hostOps1_W ∧ r ∉ hostOps2_W ∧ r ∉ hostOps2_1_W
    ∧ r ∉ hostOps2_2_W ∧ r ∉ hostOps2_3_W ∧ r ∉ hostOps2_4_W ∧ r ∉ hostOps3_W ∧ r ∉ hostOps4_W)
  ∧ (∀ w, arrRef spec0 w ≠ r) ∧ (∀ w, arrRef spec1 w ≠ r) ∧ (∀ w, arrRef spec2 w ≠ r) ∧ ∀ w, arrRef spec3 w ≠ r

-- Then `r` holds at the end what it held at launch: every item keeps it.
theorem W15_of_untouched (c : Dev nD) (r : Ref sig .tc) (h : Untouched r) :
    W15 m ρ c (Proc.devRef .tc r) = m ((c : Thread nD τ).loc r) := by
  obtain ⟨⟨h1, h2, h3, h5, h7, h8, h9, h10, h11, h13, h15⟩, g0, g1, g2, g3⟩ := h
  exact (StableHlo.after_of_writes_sub hostOps4 _ hostOps4_writes h15).trans <| (W14_of_ne m ρ c r g3).trans <|
    (StableHlo.after_of_writes_sub hostOps3 _ hostOps3_writes h13).trans <| (W12_of_ne m ρ c r g2).trans <|
    (StableHlo.after_of_writes_sub hostOps2_4 _ hostOps2_4_writes h11).trans <|
    (StableHlo.after_of_writes_sub hostOps2_3 _ hostOps2_3_writes h10).trans <|
    (StableHlo.after_of_writes_sub hostOps2_2 _ hostOps2_2_writes h9).trans <|
    (StableHlo.after_of_writes_sub hostOps2_1 _ hostOps2_1_writes h8).trans <|
    (StableHlo.after_of_writes_sub hostOps2 _ hostOps2_writes h7).trans <| (W6_of_ne m ρ c r g1).trans <|
    (StableHlo.after_of_writes_sub hostOps1 _ hostOps1_writes h5).trans <| (W4_of_ne m ρ c r g0).trans <|
    (StableHlo.after_of_writes_sub hostOps0_2 _ hostOps0_2_writes h3).trans <|
    (StableHlo.after_of_writes_sub hostOps0_1 _ hostOps0_1_writes h2).trans <|
    StableHlo.after_of_writes_sub hostOps0 _ hostOps0_writes h1

end Cert.KernelIdeal.Hand

end
-- ==== Proof.KI.Run.lean ====
import proofs.«426427_j36155034698037_1_alg».proof.Proof.KI.Fold

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf ucRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `pdats p`: region `p`'s proof data over the contents it starts from.
def pdats : (p : Fin 4) → (c : Dev nD) → Dat τ (Elt F) Unit ℕ (UR sig nD τ) ℕ (Pipeline.pin (pcfgs (F := F)) adm p) c
  | ⟨0, _⟩ => dat0 (V3 m ρ)
  | ⟨1, _⟩ => dat1 (V5 m ρ)
  | ⟨2, _⟩ => dat2 (V11 m ρ)
  | ⟨3, _⟩ => dat3 (V13 m ρ)
abbrev 𝒱₀ : Variants := Variants.none
abbrev L : GSem nD τ sig → Finset Unit := fun _ => ∅
abbrev lv : GSem nD τ sig → Unit → ℕ := fun _ _ => 0
-- What a core holds beside its buffers between two items.
abbrev R (c : Dev nD) : sProp 𝕄 := iprop((∃ r, prngReg c r) ∗ ∃ W, owes (c : Thread nD τ) (0 : CellTallies nD τ sig Unit) W)
-- The thread state between two items: every unscoped buffer at `W c`, beside `R c`.
abbrev T (W : Dev nD → Valuation τ sig (Elt F)) (c : Dev nD) : sProp 𝕄 :=
  iprop(StableHlo.held (c : Thread nD τ) (ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (ucRefs τ sig) ops
    (fun op h => Pipeline.sub_ucRefs op ((List.forall_iff_forall_mem.mp hsub) op h))
    (List.forall_iff_forall_mem.mp hfresh) W R
theorem mem_uc (b : Ref sig .tc) (h : ¬ (Proc.devRef .tc b : DevRef τ sig).isScoped) : Proc.devRef .tc b ∈ ucRefs τ sig :=
  Finset.mem_filter.mpr ⟨StableHlo.devRef_mem_tcRefs b, h⟩

-- Region `p` as a segment from `T W` to `T` of `W` updated at the windows' arrays with the proof data's final contents.
def reg (p : Fin 4) (lf : Pipeline.LaunchFacts (nD := nD) (τ := τ) cfgs p) (W : Dev nD → Valuation τ sig (Elt F))
    (hbody : ∀ c, Pipeline.BodyObligation (pdats m ρ p c) (defs₀ (F := F)) 𝒱₀ () Set.univ)
    (howed : ∀ c t, (pdats m ρ p c).owed t = 0) (hrec : ∀ c, (pdats m ρ p c).recorded 0 = Set.univ)
    (hq : ∀ c w, (pdats m ρ p c).q w = fullShare)
    (hA : ∀ c w, (pdats m ρ p c).A w = W c (Proc.devRef .tc (Pipeline.arrRef (cfgs p).spec w)))
    (h0 : ∀ c, Pipeline.ΦA (cfgs p).spec c ⊢ (pdats m ρ p c).Φ 0)
    (hN : ∀ c, (pdats m ρ p c).Φ (Fin.last (cfgs p).N) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := T W
  post := T fun c => Pipeline.withArrays (cfgs p).spec c (W c) fun w => (pdats m ρ p c).arrAt w (cfgs p).N
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (pcfgs (F := F)) adm (pdats m ρ) lf.win lf.arr_whole c
      ((pdats m ρ p c).share_full (hq c)) (fun b => W c b) (hA c)
    rw [Pipeline.unscopedBufs_held] at hsplit
    unfold Pipeline.prefHeld Pipeline.Dat.owesAt Pipeline.owesWithin
    rw [howed c, show (Finset.univ : Finset (Fin 0)) = ∅ from rfl, BI.bigSep_empty]
    iintro ⟨⟨Hub, Hp, %O, HO⟩, -, -⟩
    ihave H := hsplit $$ Hub
    icases H with ⟨Ha, Hrest⟩
    imodintro
    iframe Ha Hp Hrest
    isplitr; · iempintro
    iexists O; iframe HO
    ipureintro; exact fun _ _ => Or.inl (hrec c ▸ trivial)
  hin c := by
    refine .trans ?_ (h0 c)
    unfold Pipeline.ΦA
    iintro ⟨Hp, -, Hr⟩
    iframe
  hout c := by
    refine (hN c).trans ?_
    rw [Pipeline.ownSems0_none]; unfold Pipeline.ΦA
    iintro ⟨Hr, Hp⟩
    iframe; iempintro
  hexit c := by
    have hjoin := Pipeline.unscopedBufs_of_arrays (pcfgs (F := F)) adm (Ix := Unit) (Name := ℕ) (U := UR sig nD τ) (Lvl := ℕ)
      lf.win lf.arr_whole c (pdats m ρ) ((pdats m ρ p c).share_full (hq c)) (fun b => W c b)
      (fun b => Pipeline.withArrays (cfgs p).spec c (W c) (fun w => (pdats m ρ p c).arrAt w (cfgs p).N) b)
      ((pdats m ρ p c).arrAt · (cfgs p).N) (fun w => (Pipeline.withArrays_arr (cfgs p).spec lf.win.arr_inj c (W c) (fun w => (pdats m ρ p c).arrAt w (cfgs p).N) w).symm)
      fun b hb => Pipeline.withArrays_of_ne (cfgs p).spec c (W c) _ b fun w e => hb (Finset.mem_image.mpr ⟨w, Finset.mem_univ _, e⟩)
    rw [Pipeline.unscopedBufs_held] at hjoin
    unfold Pipeline.Dat.owesAt Pipeline.owesWithin; rw [howed c]
    iintro ⟨Ha, ⟨%O, -, HO⟩, HY, Hrest⟩
    imodintro
    isplitl [Ha Hrest]; · iapply hjoin; iframe
    isplitl [HY]; · iexact HY
    iexists O; iexact HO

-- @main as the list of its items: the host stretches from `W0`, `W1`, … and the four regions.
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg m ρ 0 launch0 (W3 m ρ) (body_obligation0 (V3 m ρ)) (fun _ _ => rfl) (fun _ => rfl)
      (fun _ _ => rfl) (A_eq0 (V3 m ρ)) (fun _ => .rfl) fun _ => .rfl),
    .host (hseg hostOps1 hostOps1_sub hostOps1_fresh (W4 m ρ)),
    .region (reg m ρ 1 launch1 (W5 m ρ) (body_obligation1 (V5 m ρ)) (owed_eq1 (V5 m ρ)) (fun _ => rfl)
      (q_eq1 (V5 m ρ)) (A_eq1 (V5 m ρ)) (hin1 (V5 m ρ)) (hout1 (V5 m ρ))),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .host (hseg hostOps2_3 hostOps2_3_sub hostOps2_3_fresh (W9 m ρ)),
    .host (hseg hostOps2_4 hostOps2_4_sub hostOps2_4_fresh (W10 m ρ)),
    .region (reg m ρ 2 launch2 (W11 m ρ) (body_obligation2 (V11 m ρ)) (fun _ _ => rfl) (fun _ => rfl)
      (fun _ _ => rfl) (A_eq2 (V11 m ρ)) (fun _ => .rfl) fun _ => .rfl),
    .host (hseg hostOps3 hostOps3_sub hostOps3_fresh (W12 m ρ)),
    .region (reg m ρ 3 launch3 (W13 m ρ) (body_obligation3 (V13 m ρ)) (owed_eq3 (V13 m ρ)) (fun _ => rfl)
      (q_eq3 (V13 m ρ)) (A_eq3 (V13 m ρ)) (hin3 (V13 m ρ)) (hout3 (V13 m ρ))),
    .host (hseg hostOps4 hostOps4_sub hostOps4_fresh (W14 m ρ)) ]
theorem main_run (c : Dev nD) : main (F := F) c = Pipeline.Seg.run (segs m ρ) := (main_chain c).trans (by chain_rfl)

set_option backward.isDefEq.respectTransparency.types false in
-- @main terminates under weak fairness; the result buffer ends at `W15`, every argument as it began.
theorem run : θ_run defs (onTc (τ := τ) (main (F := F))) ⟨m, fun _ => 0, ρ⟩ (fun r => ∀ c : Dev nD,
      r.2.mem ((c.tc : Thread nD τ).loc main_v78) = W15 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := fun c => iprop(StableHlo.held (c : Thread nD τ) (ucRefs τ sig) (W15 m ρ c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = W15 m ρ c b)
    (hfin := fun c s' => by
      iintro ⟨⟨Hh, -⟩, HSI⟩
      unfold StableHlo.held
      imodintro
      iapply (pointsTo_read_all (ucRefs τ sig) (fun b => (((c : Thread nD τ)).1, b)) (W15 m ρ c) s')
      iframe)
    (hQ := fun s h c =>
      have A (r : Ref sig .tc) (hs : ¬ (Proc.devRef .tc r : DevRef τ sig).isScoped) (hu : Untouched r) :=
        (h c _ (mem_uc r hs)).trans (W15_of_untouched m ρ c r hu)
      ⟨h c _ (mem_uc main_v78 (by decide)), A main_arg0 (by decide) (by decide),
       A main_arg1 (by decide) (by decide),
       A main_arg2 (by decide) (by decide),
       A main_arg3 (by decide) (by decide),
       A main_arg4 (by decide) (by decide),
       A main_arg5 (by decide) (by decide),
       A main_arg6 (by decide) (by decide),
       A main_arg7 (by decide) (by decide),
       A main_arg8 (by decide) (by decide),
       A main_arg9 (by decide) (by decide),
       A main_arg10 (by decide) (by decide),
       A main_arg11 (by decide) (by decide)⟩)

-- Dropping the result's conjunct leaves the frame claim.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run m ρ)

end Cert.KernelIdeal.Hand

end
-- ==== Proof.Spec.lean ====
import Mathlib.Data.EReal.Basic
import Mathlib.Algebra.BigOperators.Fin
import Mathlib.Algebra.BigOperators.Ring.Finset
import Mathlib.Tactic.Ring
import Mathlib.Tactic.Linarith

noncomputable section

namespace Cert.Spec

open Finset

variable {D : ℕ}

-- `x` is a real number.
def Fin' (x : EReal) : Prop := ∃ r : ℝ, x = (r : EReal)

-- The features, with zero rows from node 10000 up to 10112.
def padRow (h : Fin 10000 → Fin 1024 → EReal) (c : Fin 10112) (k : Fin 1024) : EReal :=
  if hc : c.val < 10000 then h ⟨c.val, hc⟩ k else 0

-- `padRow h · W + b`.
def supK (h : Fin 10000 → Fin 1024 → EReal) (W : Fin 1024 → Fin D → EReal) (b : Fin D → EReal)
    (c : Fin 10112) (j : Fin D) : EReal :=
  (∑ k, padRow h c k * W k j) + b j

-- `h · W + b`.
def supR (h : Fin 10000 → Fin 1024 → EReal) (W : Fin 1024 → Fin D → EReal) (b : Fin D → EReal)
    (n : Fin 10000) (j : Fin D) : EReal :=
  (∑ k, h n k * W k j) + b j

-- Entry `(r, c)`: the sum of the values of the edges from `c` into `r`.
def adj (vals : Fin 160000 → EReal) (rows cols : Fin 160000 → BitVec 32) (r c : Fin 10112) : EReal :=
  ∑ e, if (rows e).toInt = (r.val : ℤ) ∧ (cols e).toInt = (c.val : ℤ) then vals e else 0

-- Row `i` of `adj` times `supK`.
def aggK (vals : Fin 160000 → EReal) (rows cols : Fin 160000 → BitVec 32)
    (h : Fin 10000 → Fin 1024 → EReal) (W : Fin 1024 → Fin D → EReal) (b : Fin D → EReal)
    (i : Fin 10000) (j : Fin D) : EReal :=
  ∑ c : Fin 10112, adj vals rows cols ⟨i.val, by omega⟩ c * supK h W b c j

-- The column word of edge `e` as a node, clamped into the node axis.
def src (cols : Fin 160000 → BitVec 32) (e : Fin 160000) : Fin 10000 :=
  ⟨min (cols e).toInt.toNat (10000 - 1), by omega⟩

-- The sum over the edges into `i` of the value times the source's `supR` row.
def aggR (vals : Fin 160000 → EReal) (rows cols : Fin 160000 → BitVec 32)
    (h : Fin 10000 → Fin 1024 → EReal) (W : Fin 1024 → Fin D → EReal) (b : Fin D → EReal)
    (i : Fin 10000) (j : Fin D) : EReal :=
  ∑ e ∈ univ.filter (fun e : Fin 160000 => (rows e).toInt = (i.val : ℤ)), vals e * supR h W b (src cols e) j

end Cert.Spec

end
-- ==== Proof.LibScatterFlat.lean ====
import Idealize.ShloMosaic.PureOps.Ideal
import Idealize.ShloMosaic.Lib.ValueIdx

noncomputable section

open Idealize.ShloMosaic Idealize.ShloMosaic.ValueIdx
open scoped BigOperators

namespace Cert.LibScatterFlat

/-- The landing index is start plus window coordinate cut to a natural number, and is dropped when one leaves the operand. -/
theorem lands_iff_forall {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i hin
    rw [Option.some.injEq, funext_iff]
    refine forall_congr' fun a => ?_
    have := (hin a).1
    rw [Fin.ext_iff]
    show (d.start j idx a + (d.window j a : ℤ)).toNat = (i a).val ↔ _
    omega
  · rename_i hout
    refine iff_of_false (fun he => nomatch he) fun hall => hout fun a => ?_
    have := (i a).isLt
    rw [hall a]
    omega

/-- The indices of a one-axis shape are that axis's coordinates. -/
theorem sum_rank1 {A : Type*} [AddCommMonoid A] {n : Nat} (f : (⟨1, ![n]⟩ : Shape).Idx → A) :
    ∑ i, f i = ∑ a : Fin n, f (ix1 a) :=
  Fintype.sum_equiv ⟨fun i => i 0, ix1, fun i => (eq_ix1 i).symm, fun _ => rfl⟩ f _ fun i => congrArg f (eq_ix1 i)

variable {M N E w : Nat}
  (h : ScatterDims.WF (⟨2, ![M, N]⟩ : Shape) (⟨2, ![E, 2]⟩ : Shape) (⟨1, ![E]⟩ : Shape) [] [0, 1] [0, 1] 1)
  (j : (⟨1, ![E]⟩ : Shape).Idx) (idx : IVec (⟨2, ![E, 2]⟩ : Shape) w) (a : Fin 2)

abbrev flatDims : ScatterDims (⟨2, ![M, N]⟩ : Shape) (⟨2, ![E, 2]⟩ : Shape) (⟨1, ![E]⟩ : Shape) := ⟨[], [0, 1], [0, 1], 1, h⟩

/-- Both operand axes are named by the index vector, axis `a` by its word `a`. -/
theorem flat_start : (flatDims h).start j idx a = (idx (ix2 (j 0) a)).toInt := by
  have hs : ∀ c, (flatDims h).siIdx j c = ix2 (j 0) (⟨c.val, c.isLt⟩ : Fin 2) := fun c => funext fun b => Fin.ext <| by
    match b with
    | ⟨0, _⟩ => rfl
    | ⟨1, _⟩ => rfl
  unfold ScatterDims.start
  rw [dif_pos ((by decide : ∀ a : Fin 2, a ∈ ([0, 1] : List (Fin 2))) a), hs]
  exact congrArg (fun c => (idx (ix2 (j 0) c)).toInt) (Fin.ext ((by decide : ∀ a : Fin 2, List.idxOf a [0, 1] = a.val) a))

/-- Both operand axes are inserted ones, so no window coordinate is left. -/
theorem flat_window : (flatDims h).window j a = 0 :=
  dif_neg ((by decide : ∀ a : Fin 2, a ∉ (List.finRange 2).filter (· ∉ ([0, 1] : List (Fin 2)))) a)

/-- Each update touches the one element its two words name, so an element gathers exactly the updates naming it. -/
theorem scatterAdd_flat (x : (⟨2, ![M, N]⟩ : Shape).Idx → EReal) (idx : IVec (⟨2, ![E, 2]⟩ : Shape) w)
    (upd : (⟨1, ![E]⟩ : Shape).Idx → EReal) (r : Fin M) (n : Fin N) :
    Ideal.hostScatterAdd (flatDims h) x idx upd (ix2 r n)
      = x (ix2 r n) + ∑ e : Fin E,
          if (idx (ix2 e (0 : Fin 2))).toInt = (r.val : ℤ) ∧ (idx (ix2 e (1 : Fin 2))).toInt = (n.val : ℤ) then upd (ix1 e) else 0 := by
  unfold Ideal.hostScatterAdd
  rw [Finset.sum_filter, sum_rank1]
  refine congrArg _ (Finset.sum_congr rfl fun e _ => if_congr ?_ rfl rfl)
  rw [lands_iff_forall]
  simp only [flat_start, flat_window, Nat.cast_zero, add_zero]
  exact Fin.forall_fin_two

end Cert.LibScatterFlat

end
-- ==== Proof.KI.HostA.lean ====
import proofs.«426427_j36155034698037_1_alg».proof.Proof.KI.Fold
import proofs.«426427_j36155034698037_1_alg».proof.Proof.Spec
import proofs.«426427_j36155034698037_1_alg».proof.Proof.LibScatterFlat
import Idealize.ShloMosaic.PureOps.Ideal
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.Lib.DynamicIndex
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.ShloMosaic.ValueIdx Idealize.ShloMosaic.StableHlo
open Cert.KernelIdeal.Facts₀ Cert.KernelIdeal.Facts

/-- Below row 10000 the padded array reads its operand; behind, the padding scalar, the integer zero converted. -/
theorem padRows_apply (a : FVec Ideal S10000x1024 .f32) (r : Fin 10112) (k : Fin 1024) :
    truncf (F := Ideal) .bf16 (pad S10112x1024 ![0, 0] ![112, 0] ![0, 0] a
        (sitofp (F := Ideal) .f32 (constantI S_ 32 0#32) : FVec Ideal S_ .f32) Gen.pads_S10000x1024_S10112x1024_01120_000 Gen.h_S_)
        Gen.bitsLt_bf16_f32 (ix2 r k)
      = Cert.Spec.padRow (fun n k => a (ix2 n k)) r k := by
  rw [truncf_apply]
  unfold Cert.Spec.padRow
  by_cases h : r.val < 10000
  · rw [dif_pos h]
    exact pad_apply_of_inside _ _ _ _ _ _ _ _ (ix2 (⟨r.val, h⟩ : Fin 10000) k) (fun a => by
      match a with
      | ⟨0, _⟩ => show r.val = 0 + r.val * (0 + 1); omega
      | ⟨1, _⟩ => show k.val = 0 + k.val * (0 + 1); omega)
  · rw [dif_neg h, pad_apply_of_not_inside _ _ _ _ _ _ _ _ (0 : Fin 2) (by
      show ¬(0 ≤ r.val ∧ (r.val - 0) % (0 + 1) = 0 ∧ (r.val - 0) / (0 + 1) < 10000)
      omega)]
    show ((((0#32 : BitVec 32).toInt : ℝ)) : EReal) = 0
    simp

variable (m : (ℓ : Loc nD τ sig) → Buf (Elt Ideal) ℓ) (ρ : Dev nD → PrngReg) (c : Dev nD)

/-- The weight, bias, scale and shift arguments. -/
noncomputable def wArgs : List (Ref sig .tc) :=
  [main_arg2, main_arg3, main_arg4, main_arg5, main_arg6, main_arg7, main_arg8, main_arg9]

/-- Nothing the program runs writes such an argument. -/
theorem wArgs_free : ∀ r ∈ wArgs,
    (r ∉ hostOps0_W ∧ r ∉ hostOps0_1_W)
      ∧ (r ∉ hostOps0_2_W ∧ r ∉ hostOps1_W ∧ (∀ w, Pipeline.arrRef spec0 w ≠ r) ∧ ∀ w, Pipeline.arrRef spec1 w ≠ r)
      ∧ (r ∉ hostOps2_W ∧ r ∉ hostOps2_1_W ∧ r ∉ hostOps2_2_W ∧ r ∉ hostOps2_3_W)
      ∧ r ∉ hostOps2_4_W ∧ r ∉ hostOps3_W ∧ (∀ w, Pipeline.arrRef spec2 w ≠ r) ∧ ∀ w, Pipeline.arrRef spec3 w ≠ r := by
  decide

/-- So it still holds its launch contents when the first region starts. -/
theorem W2_launch {r : Ref sig .tc} (hr : r ∈ wArgs) : W2 m ρ c (Proc.devRef .tc r) = m ((c : Thread nD τ).loc r) :=
  have ⟨⟨h1, h2⟩, _⟩ := wArgs_free r hr
  (after_of_writes_sub hostOps0_1 _ hostOps0_1_writes h2).trans (after_of_writes_sub hostOps0 _ hostOps0_writes h1)

theorem v18_apply (k : Fin 1024) (n : Fin 1024) :
    (V3 m ρ c main_v18 : S1024x1024.Idx → EReal) (ix2 k n)
      = (m ((c : Thread nD τ).loc main_arg2) : S1024x1024.Idx → EReal) (ix2 k n) := by
  rw [← W2_launch m ρ c (r := main_arg2) (by decide)]
  show after hostOps0_2 (W2 m ρ c) (Proc.devRef .tc main_v18) (ix2 k n) = _
  after_results
  exact truncf_apply ..

theorem v19_apply (n : Fin 1024) :
    (V3 m ρ c main_v19 : S1x1024.Idx → EReal) (ix2 (0 : Fin 1) n)
      = (m ((c : Thread nD τ).loc main_arg3) : S1024.Idx → EReal) (ix1 n) := by
  rw [← W2_launch m ρ c (r := main_arg3) (by decide)]
  show after hostOps0_2 (W2 m ρ c) (Proc.devRef .tc main_v19) (ix2 (0 : Fin 1) n) = _
  after_results
  exact shapeCast_a_1a_apply ..

theorem v17_apply (r : Fin 10112) (k : Fin 1024) :
    (V3 m ρ c main_v17 : S10112x1024.Idx → EReal) (ix2 r k)
      = Cert.Spec.padRow (fun n k => (m ((c : Thread nD τ).loc main_arg0) : S10000x1024.Idx → EReal) (ix2 n k)) r k := by
  rw [← padRows_apply]
  show after hostOps0_2 (after hostOps0_1 (after hostOps0 (W0 m ρ c))) (Proc.devRef .tc main_v17) (ix2 r k) = _
  after_results_simp
  rfl

theorem v21_apply (r : Fin 10112) (n : Fin 1024) :
    (V5 m ρ c main_v21 : S10112x1024.Idx → EReal) (ix2 r n)
      = ((dat0 (V3 m ρ) c).arrAt 3 cfg0.N : S10112x1024.Idx → EReal) (ix2 r n) := by
  rw [← W4_arr m ρ c 3]
  show after hostOps1 (W4 m ρ c) (Proc.devRef .tc main_v21) (ix2 r n) = _
  after_results
  exact truncf_apply ..

/-- Nothing between the first two regions' starts writes the adjacency array. -/
theorem v15_keep5 : V5 m ρ c main_v15 = V3 m ρ c main_v15 :=
  (after_of_writes_sub hostOps1 _ hostOps1_writes (by decide)).trans (W4_of_ne m ρ c main_v15 (by decide))

noncomputable def nrm (w : IVec S160000 32) : IVec S160000 32 :=
  select (cmpi .slt w (broadcastInDim S160000 ![] Gen.bcast_S_S160000 (constantI S_ 32 0#32)))
    (addi w (broadcastInDim S160000 ![] Gen.bcast_S_S160000 (constantI S_ 32 10112#32))) w

noncomputable def idx2 (a b : IVec S160000 32) : IVec S160000x2 32 :=
  concatenate S160000x2 1
    [⟨S160000x1, broadcastInDim S160000x1 ![0] Gen.bcast_S160000_S160000x1_0 (nrm a)⟩,
     ⟨S160000x1, broadcastInDim S160000x1 ![0] Gen.bcast_S160000_S160000x1_0 (nrm b)⟩]
    Gen.concatenates_S160000x1_S160000x1_S160000x2_d1

/-- Over any entry contents: a zero array with each edge value added at its row and column words, negative words moved up by 10112. -/
theorem ops0_v15 (X : Valuation τ sig (Elt Ideal)) :
    (after hostOps0 X (Proc.devRef .tc main_v15) : FVec Ideal S10112x10112 .bf16)
      = truncf (F := Ideal) .bf16
          (Host.scatterAdd (F := Ideal) scatter_S10112x10112_S160000x2_S160000_n_01_01_1
            (broadcastInDim S10112x10112 ![] Gen.bcast_S_S10112x10112 (constant (F := Ideal) S_ .f32 0x00000000#32))
            (idx2 (X (Proc.devRef .tc main_arg10) : IVec S160000 32) (X (Proc.devRef .tc main_arg11) : IVec S160000 32))
            (X (Proc.devRef .tc main_arg1) : FVec Ideal S160000 .f32))
          Gen.bitsLt_bf16_f32 := by
  after_results_simp
  rfl

/-- Where the word is not negative the select takes its second branch. -/
theorem nrm_apply (w : IVec S160000 32) (e : Fin 160000) (h : 0 ≤ (w (ix1 e)).toInt) : nrm w (ix1 e) = w (ix1 e) :=
  select_slt_zero_of_nonneg w _ _ (ix1 e) h

theorem col_apply (v : IVec S160000 32) (e : Fin 160000) :
    broadcastInDim S160000x1 ![0] Gen.bcast_S160000_S160000x1_0 v (ix2 e (0 : Fin 1)) = v (ix1 e) :=
  broadcastInDim_apply _ _ v (ix2 e (0 : Fin 1)) (ix1 e) fun a => by
    match a with
    | ⟨0, _⟩ => show e.val = if (160000 : ℕ) = 1 then 0 else e.val; rw [if_neg (by decide)]

theorem idx2_apply0 (a b : IVec S160000 32) (e : Fin 160000) : idx2 a b (ix2 e (0 : Fin 2)) = nrm a (ix1 e) := by
  unfold idx2
  refine (concatenate_pair_apply_left (t := S160000x2) (s₁ := S160000x1) (s₂ := S160000x1) _ _ _ _ (ix2 e (0 : Fin 2)) rfl
    (ix2 e (0 : Fin 1)) fun d => ?_).trans (col_apply _ e)
  match d with
  | ⟨0, _⟩ => rfl
  | ⟨1, _⟩ => rfl

theorem idx2_apply1 (a b : IVec S160000 32) (e : Fin 160000) : idx2 a b (ix2 e (1 : Fin 2)) = nrm b (ix1 e) := by
  unfold idx2
  refine (concatenate_pair_apply_right (t := S160000x2) (s₁ := S160000x1) (s₂ := S160000x1) _ _ _ _ (ix2 e (1 : Fin 2)) rfl rfl
    (ix2 e (0 : Fin 1)) (fun d hd => ?_) rfl).trans (col_apply _ e)
  match d with
  | ⟨0, _⟩ => rfl
  | ⟨1, _⟩ => exact absurd rfl hd

/-- No index word is negative, so each is left as it is and an edge lands where its two words say. -/
theorem v15_apply
    (hrows : ∀ e : Fin 160000, 0 ≤ ((m ((c : Thread nD τ).loc main_arg10) : S160000.Idx → BitVec 32) (ix1 e)).toInt)
    (hcols : ∀ e : Fin 160000, 0 ≤ ((m ((c : Thread nD τ).loc main_arg11) : S160000.Idx → BitVec 32) (ix1 e)).toInt)
    (r c' : Fin 10112) :
    (V3 m ρ c main_v15 : S10112x10112.Idx → EReal) (ix2 r c')
      = Cert.Spec.adj (fun e => (m ((c : Thread nD τ).loc main_arg1) : S160000.Idx → EReal) (ix1 e))
          (fun e => (m ((c : Thread nD τ).loc main_arg10) : S160000.Idx → BitVec 32) (ix1 e))
          (fun e => (m ((c : Thread nD τ).loc main_arg11) : S160000.Idx → BitVec 32) (ix1 e)) r c' := by
  refine (congrFun ((after_of_writes_sub hostOps0_2 _ hostOps0_2_writes (by decide)).trans <|
    (after_of_writes_sub hostOps0_1 _ hostOps0_1_writes (by decide)).trans (ops0_v15 (W0 m ρ c))) _).trans ?_
  rw [truncf_apply]
  refine (Cert.LibScatterFlat.scatterAdd_flat Gen.scatter_S10112x10112_S160000x2_S160000_n_01_01_1_wf _ _ _ r c').trans ?_
  rw [broadcastInDim_scalar_apply, constant_apply, Ideal.ofBits_zero_f32, zero_add]
  unfold Cert.Spec.adj
  exact Finset.sum_congr rfl fun e _ => by rw [idx2_apply0, idx2_apply1, nrm_apply _ e (hrows e), nrm_apply _ e (hcols e)]

end Cert.KernelIdeal.Hand
end
-- ==== Proof.Bn.lean ====
import Idealize.ShloMosaic.PureOps
import Idealize.ShloMosaic.PureOps.Ideal

noncomputable section

namespace Cert.Bn

open Idealize.ShloMosaic

abbrev S_ : Shape := ⟨0, ![]⟩
abbrev S10000x1024 : Shape := ⟨2, ![10000, 1024]⟩
abbrev S1024 : Shape := ⟨1, ![1024]⟩
abbrev S1x1024 : Shape := ⟨2, ![1, 1024]⟩
abbrev S10000x256 : Shape := ⟨2, ![10000, 256]⟩
abbrev S256 : Shape := ⟨1, ![256]⟩
abbrev S1x256 : Shape := ⟨2, ![1, 256]⟩

variable {F : FTy → Type} [FloatOps F]

/-- A row over the feature axis, repeated along the node axis. -/
def rep1 (v : FVec F S1024 .f32) : FVec F S10000x1024 .f32 :=
  broadcastInDim S10000x1024 ![0, 1] (by decide) (broadcastInDim S1x1024 ![1] (by decide) v)

/-- Subtract the column mean, divide by the root of the biased column variance plus ε, scale and shift. -/
def bn1 (a : FVec F S10000x1024 .f32) (g be : FVec F S1024 .f32) : FVec F S10000x1024 .f32 :=
  let mean : FVec F S1024 .f32 :=
    Host.divf (Host.reduceAdd (axes := [0]) a (constant S_ .f32 0x00000000#32) (by decide) (by decide))
      (broadcastInDim S1024 ![] (by decide) (constant S_ .f32 0x461C4000#32))
  let d : FVec F S10000x1024 .f32 := subf a (rep1 mean)
  let var : FVec F S1024 .f32 :=
    Host.divf (Host.reduceAdd (axes := [0]) (mulf d d) (constant S_ .f32 0x00000000#32) (by decide) (by decide))
      (broadcastInDim S1024 ![] (by decide) (constant S_ .f32 0x461C4000#32))
  let den : FVec F S1024 .f32 :=
    Host.sqrt (addf var (broadcastInDim S1024 ![] (by decide) (constant S_ .f32 0x3727C5AC#32)))
  addf (mulf (subf a (rep1 mean)) (rep1 (Host.divf g den))) (rep1 be)

def relu1 (a : FVec F S10000x1024 .f32) : FVec F S10000x1024 .f32 :=
  maximumf a (broadcastInDim S10000x1024 ![] (by decide) (constant S_ .f32 0x00000000#32))

def rep2 (v : FVec F S256 .f32) : FVec F S10000x256 .f32 :=
  broadcastInDim S10000x256 ![0, 1] (by decide) (broadcastInDim S1x256 ![1] (by decide) v)

def bn2 (a : FVec F S10000x256 .f32) (g be : FVec F S256 .f32) : FVec F S10000x256 .f32 :=
  let mean : FVec F S256 .f32 :=
    Host.divf (Host.reduceAdd (axes := [0]) a (constant S_ .f32 0x00000000#32) (by decide) (by decide))
      (broadcastInDim S256 ![] (by decide) (constant S_ .f32 0x461C4000#32))
  let d : FVec F S10000x256 .f32 := subf a (rep2 mean)
  let var : FVec F S256 .f32 :=
    Host.divf (Host.reduceAdd (axes := [0]) (mulf d d) (constant S_ .f32 0x00000000#32) (by decide) (by decide))
      (broadcastInDim S256 ![] (by decide) (constant S_ .f32 0x461C4000#32))
  let den : FVec F S256 .f32 :=
    Host.sqrt (addf var (broadcastInDim S256 ![] (by decide) (constant S_ .f32 0x3727C5AC#32)))
  addf (mulf (subf a (rep2 mean)) (rep2 (Host.divf g den))) (rep2 be)

end Cert.Bn

end
-- ==== Proof.KI.HostB.lean ====
import proofs.«426427_j36155034698037_1_alg».proof.Proof.KI.HostA
import proofs.«426427_j36155034698037_1_alg».proof.Proof.Bn

noncomputable section

namespace Cert.KernelIdeal.Hand

open Cert.KernelIdeal Cert.KernelIdeal.Gen
open Idealize.ShloMosaic Idealize.ShloMosaic.TcCoe Idealize.ShloMosaic.Tactic
open Idealize.ShloMosaic.ValueIdx StableHlo

def sl1 (a : FVec Ideal S10112x1024 .f32) : FVec Ideal S10000x1024 .f32 :=
  extractStridedSlice S10000x1024 ![0, 0] a slices_S10112x1024_S10000x1024_0_0

def sl2 (a : FVec Ideal S10112x256 .f32) : FVec Ideal S10000x256 .f32 :=
  extractStridedSlice S10000x256 ![0, 0] a slices_S10112x256_S10000x256_0_0

theorem sl1_apply (a : FVec Ideal S10112x1024 .f32) (i : Fin 10000) (j : Fin 1024) :
    sl1 a (ix2 i j) = a (ix2 (⟨i.val, by omega⟩ : Fin 10112) j) :=
  slice2_axis0_apply 0 a slices_S10112x1024_S10000x1024_0_0 i j _ (Nat.zero_add _).symm

theorem sl2_apply (a : FVec Ideal S10112x256 .f32) (i : Fin 10000) (j : Fin 256) :
    sl2 a (ix2 i j) = a (ix2 (⟨i.val, by omega⟩ : Fin 10112) j) :=
  slice2_axis0_apply 0 a slices_S10112x256_S10000x256_0_0 i j _ (Nat.zero_add _).symm

variable (m : (ℓ : Loc nD τ sig) → Buf (Elt Ideal) ℓ) (ρ : Dev nD → PrngReg) (c : Dev nD)

section Launch
variable {r : Ref sig .tc} (hr : r ∈ wArgs)
include hr

/-- A weight, bias, scale or shift argument still holds its launch contents after region 1. -/
theorem W6_launch : W6 m ρ c (Proc.devRef .tc r) = m ((c : Thread nD τ).loc r) :=
  have ⟨_, ⟨h3, h5, g0, g1⟩, _⟩ := wArgs_free r hr
  (W6_of_ne m ρ c r g1).trans <| (after_of_writes_sub hostOps1 _ hostOps1_writes h5).trans <|
    (W4_of_ne m ρ c r g0).trans <| (after_of_writes_sub hostOps0_2 _ hostOps0_2_writes h3).trans (W2_launch m ρ c hr)

/-- And after the zero rows are appended. -/
theorem W10_launch : W10 m ρ c (Proc.devRef .tc r) = m ((c : Thread nD τ).loc r) :=
  have ⟨_, _, ⟨h7, h8, h9, h10⟩, _⟩ := wArgs_free r hr
  (after_of_writes_sub hostOps2_3 _ hostOps2_3_writes h10).trans <| (after_of_writes_sub hostOps2_2 _ hostOps2_2_writes h9).trans <|
    (after_of_writes_sub hostOps2_1 _ hostOps2_1_writes h8).trans <| (after_of_writes_sub hostOps2 _ hostOps2_writes h7).trans
    (W6_launch m ρ c hr)

/-- And after region 3. -/
theorem W14_launch : W14 m ρ c (Proc.devRef .tc r) = m ((c : Thread nD τ).loc r) :=
  have ⟨_, _, _, h11, h13, g2, g3⟩ := wArgs_free r hr
  (W14_of_ne m ρ c r g3).trans <| (after_of_writes_sub hostOps3 _ hostOps3_writes h13).trans <|
    (W12_of_ne m ρ c r g2).trans <| (after_of_writes_sub hostOps2_4 _ hostOps2_4_writes h11).trans (W10_launch m ρ c hr)

end Launch

theorem v22_eq : V6 m ρ c main_v22 = (dat1 (V5 m ρ) c).arrAt 2 cfg1.N := W6_arr m ρ c 2

theorem v54_eq : V14 m ρ c main_v54 = (dat3 (V13 m ρ) c).arrAt 2 cfg3.N := W14_arr m ρ c 2

theorem v47_keep : V11 m ρ c main_v47 = V8 m ρ c main_v47 :=
  (after_of_writes_sub hostOps2_4 _ hostOps2_4_writes (by decide)).trans <|
    (after_of_writes_sub hostOps2_3 _ hostOps2_3_writes (by decide)).trans
    (after_of_writes_sub hostOps2_2 _ hostOps2_2_writes (by decide))

theorem v47_eq :
    V11 m ρ c main_v47
      = Cert.Bn.relu1 (F := Ideal) (Cert.Bn.bn1 (F := Ideal) (sl1 (V6 m ρ c main_v22)) (m ((c : Thread nD τ).loc main_arg4))
          (m ((c : Thread nD τ).loc main_arg5))) := by
  rw [v47_keep, ← W6_launch m ρ c (r := main_arg4) (by decide), ← W6_launch m ρ c (r := main_arg5) (by decide)]
  show after hostOps2_1 (after hostOps2 (W6 m ρ c)) (Proc.devRef .tc main_v47) = _
  after_results_simp
  unfold Cert.Bn.relu1 Cert.Bn.bn1 Cert.Bn.rep1 sl1
  rfl

theorem v49_apply (r : Fin 10112) (k : Fin 1024) :
    V11 m ρ c main_v49 (ix2 r k) = Cert.Spec.padRow (fun n k => V11 m ρ c main_v47 (ix2 n k)) r k := by
  rw [v47_keep, ← padRows_apply]
  show after hostOps2_4 (after hostOps2_3 (after hostOps2_2 (W8 m ρ c))) (Proc.devRef .tc main_v49) (ix2 r k) = _
  after_results_simp
  rfl

theorem v50_apply (k : Fin 1024) (n : Fin 256) :
    V11 m ρ c main_v50 (ix2 k n) = m ((c : Thread nD τ).loc main_arg6) (ix2 k n) := by
  rw [← W10_launch m ρ c (r := main_arg6) (by decide)]
  show after hostOps2_4 (W10 m ρ c) (Proc.devRef .tc main_v50) (ix2 k n) = _
  after_results_simp
  exact truncf_apply ..

theorem v51_apply (n : Fin 256) :
    V11 m ρ c main_v51 (ix2 (0 : Fin 1) n) = m ((c : Thread nD τ).loc main_arg7) (ix1 n) := by
  rw [← W10_launch m ρ c (r := main_arg7) (by decide)]
  show after hostOps2_4 (W10 m ρ c) (Proc.devRef .tc main_v51) (ix2 (0 : Fin 1) n) = _
  after_results_simp
  exact shapeCast_a_1a_apply ..

/-- Nothing between the two aggregations writes the adjacency array. -/
theorem v15_keep13 : V13 m ρ c main_v15 = V5 m ρ c main_v15 :=
  (after_of_writes_sub hostOps3 _ hostOps3_writes (by decide)).trans <| (W12_of_ne m ρ c main_v15 (by decide)).trans <|
    (after_of_writes_sub hostOps2_4 _ hostOps2_4_writes (by decide)).trans <|
    (after_of_writes_sub hostOps2_3 _ hostOps2_3_writes (by decide)).trans <|
    (after_of_writes_sub hostOps2_2 _ hostOps2_2_writes (by decide)).trans <|
    (after_of_writes_sub hostOps2_1 _ hostOps2_1_writes (by decide)).trans <|
    (after_of_writes_sub hostOps2 _ hostOps2_writes (by decide)).trans <| (W6_arr m ρ c 0).trans <|
    ((dat1 (V5 m ρ) c).arrAt_in 0 rfl cfg1.N).trans (A_eq1 (V5 m ρ) c 0)

theorem v53_apply (r : Fin 10112) (n : Fin 256) :
    V13 m ρ c main_v53 (ix2 r n) = (dat2 (V11 m ρ) c).arrAt 3 cfg2.N (ix2 r n) := by
  rw [← W12_arr m ρ c 3]
  show after hostOps3 (W12 m ρ c) (Proc.devRef .tc main_v53) (ix2 r n) = _
  after_results_simp
  exact truncf_apply ..

theorem v78_eq :
    W15 m ρ c (Proc.devRef .tc main_v78)
      = Cert.Bn.bn2 (F := Ideal) (sl2 (V14 m ρ c main_v54)) (m ((c : Thread nD τ).loc main_arg8))
          (m ((c : Thread nD τ).loc main_arg9)) := by
  rw [← W14_launch m ρ c (r := main_arg8) (by decide), ← W14_launch m ρ c (r := main_arg9) (by decide)]
  show after hostOps4 (W14 m ρ c) (Proc.devRef .tc main_v78) = _
  after_results_simp
  unfold Cert.Bn.bn2 Cert.Bn.rep2 sl2
  rfl

end Cert.KernelIdeal.Hand

end
-- ==== Proof.KI.ValA0.lean ====
import proofs.«426427_j36155034698037_1_alg».proof.Proof.KI.R0
import Idealize.ShloMosaic.Lib.StackMember
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx

theorem whole_off0 : (![0, 0] : Fin 2 → Nat) = fun _ => 0 := funext fun a => by fin_cases a <;> rfl

/-- A product into zero plus a broadcast row, read at one entry. -/
theorem out0_3_apply (x0 : Vec Ideal S1264x1024 .bf16) (x1 : Vec Ideal S1024x1024 .bf16) (x2 : Vec Ideal S1x1024 .f32)
    (p : Fin 1264) (q : Fin 1024) :
    out0_3 x0 x1 x2 (ix2 p q) = (∑ k : Fin 1024, x0 (ix2 p k) * x1 (ix2 k q)) + x2 (ix2 (0 : Fin 1) q) := by
  unfold out0_3
  rw [View.canon_unit_zero whole_off0, View.ld_unit_zero whole_off0, View.ld_unit_zero whole_off0, View.ld_unit_zero whole_off0]
  unfold k0_pay1
  simp only [shapeCast_self]
  rw [addf_apply, matmul_zero_eq_dotGeneral]
  exact congrArg₂ (· + ·) (StackMember.dotGeneral_plain_apply none x0 x1 p q)
    (broadcastTo_apply x2 _ _ (ix2 (0 : Fin 1) q) fun a => match a with | ⟨0, _⟩ => rfl | ⟨1, _⟩ => rfl)

/-- The affine map `a · w + b` with `b` a single row, entrywise. -/
def dense0 (a : S10112x1024.Idx → EReal) (w : S1024x1024.Idx → EReal) (b : S1x1024.Idx → EReal) : S10112x1024.Idx → EReal :=
  fun i => (∑ k : Fin 1024, a (ix2 (i 0) k) * w (ix2 k (i 1))) + b (ix2 (0 : Fin 1) (i 1))

theorem blocks_at0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Block `t` of the result is block `t` of the affine map of the three arrays, since block row p is array row `1264 t + p`. -/
theorem flushed0_eq (c : Dev nD) (t : Fin cfg0.N) :
    (dat0 (F := Ideal) V c).flushed 3 t
      = ((cfg0.win 3).blk t).view.read (Elt Ideal) (dense0 (V c main_v17) (V c main_v18) (V c main_v19)) := by
  show (cfg0.win 3).cut (grid0.coords t) ((dat0 V c).after 3 t) = _
  rw [after0_3]
  obtain ⟨e00, e01, e10, e11, e20, e21, e30, e31⟩ := blocks_at0 t
  funext j
  obtain ⟨p, q, rfl⟩ : ∃ (p : Fin 1264) (q : Fin 1024), j = ix2 p q := ⟨j 0, j 1, eq_ix2 j⟩
  refine (out0_3_apply _ _ _ p q).trans (congrArg₂ (· + ·) (Finset.sum_congr rfl fun k _ => congrArg₂ (· * ·) ?_ ?_) ?_)
  · refine congrArg (V c main_v17 : S10112x1024.Idx → EReal) (Shape.idx_ext₂ ?_ ?_)
    · show win0_0.index t (0 : Fin 2) * 1264 + 1 * p.val = win0_3.index t (0 : Fin 2) * 1264 + 1 * p.val; omega
    · show win0_0.index t (1 : Fin 2) * 1024 + 1 * k.val = k.val; omega
  · refine congrArg (V c main_v18 : S1024x1024.Idx → EReal) (Shape.idx_ext₂ ?_ ?_)
    · show win0_1.index t (0 : Fin 2) * 1024 + 1 * k.val = k.val; omega
    · show win0_1.index t (1 : Fin 2) * 1024 + 1 * q.val = win0_3.index t (1 : Fin 2) * 1024 + 1 * q.val; omega
  · refine congrArg (V c main_v19 : S1x1024.Idx → EReal) (Shape.idx_ext₂ ?_ ?_)
    · show win0_2.index t (0 : Fin 2) * 1 + 1 * 0 = 0; omega
    · show win0_2.index t (1 : Fin 2) * 1024 + 1 * q.val = win0_3.index t (1 : Fin 2) * 1024 + 1 * q.val; omega

/-- The eight row blocks of 1264 rows exhaust the 10112 rows. -/
theorem cover0 (i : S10112x1024.Idx) :
    ∃ t : Fin cfg0.N, (cfg0.win 3).flush t = true ∧ i ∈ ((cfg0.win 3).blk t).view.set := by
  have hi0 : (i 0).val < 10112 := (i 0).isLt
  have hi1 : (i 1).val < 1024 := (i 1).isLt
  obtain ⟨t, ht⟩ : ∃ t : Fin cfg0.N, t.val = (i 0).val / 1264 :=
    ⟨⟨(i 0).val / 1264, by rw [show cfg0.N = 8 from N_0]; omega⟩, rfl⟩
  obtain ⟨-, -, -, -, -, -, e30, e31⟩ := blocks_at0 t
  refine ⟨t, flush0_3 t, ?_⟩
  show i ∈ ((View.whole main_v20).slice (win0_3.rect t)).set
  rw [View.set_slice_whole, Rect.mem_set_unit]
  intro a
  match a with
  | ⟨0, _⟩ =>
    show win0_3.index t (0 : Fin 2) * 1264 ≤ (i 0).val ∧ (i 0).val < win0_3.index t (0 : Fin 2) * 1264 + 1264
    omega
  | ⟨1, _⟩ =>
    show win0_3.index t (1 : Fin 2) * 1024 ≤ (i 1).val ∧ (i 1).val < win0_3.index t (1 : Fin 2) * 1024 + 1024
    omega

theorem arr0_apply (c : Dev nD) (r : Fin 10112) (n : Fin 1024) :
    (dat0 (F := Ideal) V c).arrAt 3 cfg0.N (ix2 r n)
      = HAdd.hAdd (α := EReal) (β := EReal) (γ := EReal)
          (∑ k : Fin 1024, HMul.hMul (α := EReal) (β := EReal) (γ := EReal) (V c main_v17 (ix2 r k)) (V c main_v18 (ix2 k n)))
          (V c main_v19 (ix2 (0 : Fin 1) n)) :=
  congrFun ((dat0 V c).arrAt_eq_of_cover 3 (dense0 (V c main_v17) (V c main_v18) (V c main_v19))
    (fun t _ => flushed0_eq V c t) cover0) (ix2 r n)

end Cert.KernelIdeal.Hand

end
-- ==== Proof.KI.ValA2.lean ====
import proofs.«426427_j36155034698037_1_alg».proof.Proof.KI.R2
import Idealize.ShloMosaic.Lib.StackMember
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx

theorem whole_off2 : (![0, 0] : Fin 2 → Nat) = fun _ => 0 := funext fun a => by fin_cases a <;> rfl

/-- A product into zero plus a broadcast row, read at one entry. -/
theorem out2_3_apply (x0 : Vec Ideal S1264x1024 .bf16) (x1 : Vec Ideal S1024x256 .bf16) (x2 : Vec Ideal S1x256 .f32)
    (p : Fin 1264) (q : Fin 256) :
    out2_3 x0 x1 x2 (ix2 p q) = (∑ k : Fin 1024, x0 (ix2 p k) * x1 (ix2 k q)) + x2 (ix2 (0 : Fin 1) q) := by
  unfold out2_3
  rw [View.canon_unit_zero whole_off2, View.ld_unit_zero whole_off2, View.ld_unit_zero whole_off2, View.ld_unit_zero whole_off2]
  unfold k2_pay1
  simp only [shapeCast_self]
  rw [addf_apply, matmul_zero_eq_dotGeneral]
  exact congrArg₂ (· + ·) (StackMember.dotGeneral_plain_apply none x0 x1 p q)
    (broadcastTo_apply x2 _ _ (ix2 (0 : Fin 1) q) fun a => match a with | ⟨0, _⟩ => rfl | ⟨1, _⟩ => rfl)

/-- The affine map `a · w + b` with `b` a single row, entrywise. -/
def dense2 (a : S10112x1024.Idx → EReal) (w : S1024x256.Idx → EReal) (b : S1x256.Idx → EReal) : S10112x256.Idx → EReal :=
  fun i => (∑ k : Fin 1024, a (ix2 (i 0) k) * w (ix2 k (i 1))) + b (ix2 (0 : Fin 1) (i 1))

theorem blocks_at2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Block `t` of the result is block `t` of the affine map of the three arrays, since block row p is array row `1264 t + p`. -/
theorem flushed2_eq (c : Dev nD) (t : Fin cfg2.N) :
    (dat2 (F := Ideal) V c).flushed 3 t
      = ((cfg2.win 3).blk t).view.read (Elt Ideal) (dense2 (V c main_v49) (V c main_v50) (V c main_v51)) := by
  show (cfg2.win 3).cut (grid2.coords t) ((dat2 V c).after 3 t) = _
  rw [after2_3]
  obtain ⟨e00, e01, e10, e11, e20, e21, e30, e31⟩ := blocks_at2 t
  funext j
  obtain ⟨p, q, rfl⟩ : ∃ (p : Fin 1264) (q : Fin 256), j = ix2 p q := ⟨j 0, j 1, eq_ix2 j⟩
  refine (out2_3_apply _ _ _ p q).trans (congrArg₂ (· + ·) (Finset.sum_congr rfl fun k _ => congrArg₂ (· * ·) ?_ ?_) ?_)
  · refine congrArg (V c main_v49 : S10112x1024.Idx → EReal) (Shape.idx_ext₂ ?_ ?_)
    · show win2_0.index t (0 : Fin 2) * 1264 + 1 * p.val = win2_3.index t (0 : Fin 2) * 1264 + 1 * p.val; omega
    · show win2_0.index t (1 : Fin 2) * 1024 + 1 * k.val = k.val; omega
  · refine congrArg (V c main_v50 : S1024x256.Idx → EReal) (Shape.idx_ext₂ ?_ ?_)
    · show win2_1.index t (0 : Fin 2) * 1024 + 1 * k.val = k.val; omega
    · show win2_1.index t (1 : Fin 2) * 256 + 1 * q.val = win2_3.index t (1 : Fin 2) * 256 + 1 * q.val; omega
  · refine congrArg (V c main_v51 : S1x256.Idx → EReal) (Shape.idx_ext₂ ?_ ?_)
    · show win2_2.index t (0 : Fin 2) * 1 + 1 * 0 = 0; omega
    · show win2_2.index t (1 : Fin 2) * 256 + 1 * q.val = win2_3.index t (1 : Fin 2) * 256 + 1 * q.val; omega

/-- The eight row blocks of 1264 rows exhaust the 10112 rows. -/
theorem cover2 (i : S10112x256.Idx) :
    ∃ t : Fin cfg2.N, (cfg2.win 3).flush t = true ∧ i ∈ ((cfg2.win 3).blk t).view.set := by
  have hi0 : (i 0).val < 10112 := (i 0).isLt
  have hi1 : (i 1).val < 256 := (i 1).isLt
  obtain ⟨t, ht⟩ : ∃ t : Fin cfg2.N, t.val = (i 0).val / 1264 :=
    ⟨⟨(i 0).val / 1264, by rw [show cfg2.N = 8 from N_2]; omega⟩, rfl⟩
  obtain ⟨-, -, -, -, -, -, e30, e31⟩ := blocks_at2 t
  refine ⟨t, flush2_3 t, ?_⟩
  show i ∈ ((View.whole main_v52).slice (win2_3.rect t)).set
  rw [View.set_slice_whole, Rect.mem_set_unit]
  intro a
  match a with
  | ⟨0, _⟩ =>
    show win2_3.index t (0 : Fin 2) * 1264 ≤ (i 0).val ∧ (i 0).val < win2_3.index t (0 : Fin 2) * 1264 + 1264
    omega
  | ⟨1, _⟩ =>
    show win2_3.index t (1 : Fin 2) * 256 ≤ (i 1).val ∧ (i 1).val < win2_3.index t (1 : Fin 2) * 256 + 256
    omega

theorem arr2_apply (c : Dev nD) (r : Fin 10112) (n : Fin 256) :
    (dat2 (F := Ideal) V c).arrAt 3 cfg2.N (ix2 r n)
      = HAdd.hAdd (α := EReal) (β := EReal) (γ := EReal)
          (∑ k : Fin 1024, HMul.hMul (α := EReal) (β := EReal) (γ := EReal) (V c main_v49 (ix2 r k)) (V c main_v50 (ix2 k n)))
          (V c main_v51 (ix2 (0 : Fin 1) n)) :=
  congrFun ((dat2 V c).arrAt_eq_of_cover 3 (dense2 (V c main_v49) (V c main_v50) (V c main_v51))
    (fun t _ => flushed2_eq V c t) cover2) (ix2 r n)

end Cert.KernelIdeal.Hand

end
-- ==== Proof.KI.ValR1.lean ====
import proofs.«426427_j36155034698037_1_alg».proof.Proof.KI.R1
import Idealize.ShloMosaic.Lib.StackMember
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx

/-- Adding a product into zero to the accumulator, read at one entry. -/
theorem pay2_apply_R1 (acc : Vec Ideal S1264x1024 .f32) (a : Vec Ideal S1264x128 .bf16) (s : Vec Ideal S128x1024 .bf16)
    (p : Fin 1264) (q : Fin 1024) :
    k1_pay2 (F := Ideal) acc a s (ix2 p q) = acc (ix2 p q) + ∑ k : Fin 128, a (ix2 p k) * s (ix2 k q) := by
  unfold k1_pay2
  simp only [shapeCast_self]
  rw [addf_apply, matmul_zero_eq_dotGeneral]
  exact congrArg (acc (ix2 p q) + ·) (StackMember.dotGeneral_plain_apply none a s p q)

theorem idx_facts_R1 : ∀ t : Fin cfg1.N,
    win1_0.index t (0 : Fin 2) = t.val / 79 ∧ win1_0.index t (1 : Fin 2) = t.val % 79
    ∧ win1_1.index t (0 : Fin 2) = t.val % 79 ∧ win1_1.index t (1 : Fin 2) = 0
    ∧ win1_2.index t (0 : Fin 2) = t.val / 79 ∧ win1_2.index t (1 : Fin 2) = 0 :=
  (by decide +kernel : ∀ t : Fin grid1.N, _)

variable (V : (c : Dev nD) → (b : Ref sig .tc) → Buf (Elt Ideal) ((c : Thread nD τ).loc b))

abbrev lhsArr_R1 (c : Dev nD) : Vec Ideal S10112x10112 .bf16 := V c main_v15
abbrev rhsArr_R1 (c : Dev nD) : Vec Ideal S10112x1024 .bf16 := V c main_v21
abbrev lhsBlk_R1 (c : Dev nD) (t : Fin cfg1.N) : Vec Ideal S1264x128 .bf16 := iblk1 V c 0 t
abbrev rhsBlk_R1 (c : Dev nD) (t : Fin cfg1.N) : Vec Ideal S128x1024 .bf16 := iblk1 V c 1 t

/-- The summand of the matrix product at (r, n) for the contracted coordinate c'. -/
abbrev term_R1 (c : Dev nD) (r : Fin 10112) (n : Fin 1024) (c' : Fin 10112) : EReal :=
  lhsArr_R1 V c (ix2 r c') * rhsArr_R1 V c (ix2 c' n)

/-- At point 79 i + k the operand blocks are block (i, k) of the left array and block (k, 0) of the right array. -/
theorem blk_sum_R1 (c : Dev nD) (t : Fin cfg1.N) (i k : ℕ) (hk : k < 79) (ht : t.val = 79 * i + k)
    (p : Fin 1264) (q : Fin 1024) (r : Fin 10112) (n : Fin 1024) (hr : r.val = 1264 * i + p.val) (hq : n.val = q.val) :
    ∑ kk : Fin 128, lhsBlk_R1 V c t (ix2 p kk) * rhsBlk_R1 V c t (ix2 kk q)
      = ∑ kk : Fin 128, term_R1 V c r n ⟨128 * k + kk.val, by omega⟩ := by
  obtain ⟨e0, e1, e2, e3, -⟩ := idx_facts_R1 t
  refine Finset.sum_congr rfl fun kk _ => congrArg₂ (· * ·)
    (congrArg (lhsArr_R1 V c) (Shape.idx_ext₂ ?_ ?_)) (congrArg (rhsArr_R1 V c) (Shape.idx_ext₂ ?_ ?_))
  · show win1_0.index t 0 * 1264 + 1 * p.val = r.val; omega
  · show win1_0.index t 1 * 128 + 1 * kk.val = 128 * k + kk.val; omega
  · show win1_1.index t 0 * 128 + 1 * kk.val = 128 * k + kk.val; omega
  · show win1_1.index t 1 * 1024 + 1 * q.val = n.val; omega

/-- By induction on k: k + 1 steps from zero give the partial sum over the first k + 1 column blocks. -/
theorem acc_eq_R1 (c : Dev nD) (i : ℕ) (p : Fin 1264) (q : Fin 1024) (r : Fin 10112) (n : Fin 1024)
    (hr : r.val = 1264 * i + p.val) (hq : n.val = q.val) :
    ∀ (k m : ℕ) (hk : k < 79) (hm : m < cfg1.N), m = 79 * i + k →
      (outsAt1 V c m hm).2 (ix2 p q)
        = ∑ k' : Fin (k + 1), ∑ kk : Fin 128, term_R1 V c r n ⟨128 * k'.val + kk.val, by omega⟩
  | 0, m, hk, hm, e => by
    rw [sc1_first V c ⟨m, hm⟩ (by show m % 79 = 0; omega), pay2_apply_R1,
      show k1_pay1 (F := Ideal) (ix2 p q) = 0 from Ideal.ofBits_zero_f32, zero_add, Fin.sum_univ_one]
    exact blk_sum_R1 V c ⟨m, hm⟩ i 0 hk e p q r n hr hq
  | k + 1, m, hk, hm, e => by
    rw [sc1_next V c ⟨m, hm⟩ (by show m % 79 ≠ 0; omega), pay2_apply_R1]
    refine Eq.trans ?_ (Fin.sum_univ_castSucc _).symm
    exact congrArg₂ (· + ·) (acc_eq_R1 c i p q r n hr hq k (m - 1) (by omega) (by omega) (by omega))
      (blk_sum_R1 V c ⟨m, hm⟩ i (k + 1) hk e p q r n hr hq)

/-- A sum over 10112 = 79 · 128 indices, grouped into 79 runs of 128. -/
theorem sum_colBlocks_R1 {M : Type*} [AddCommMonoid M] (G : Fin 10112 → M) :
    ∑ k' : Fin 79, ∑ kk : Fin 128, G ⟨128 * k'.val + kk.val, by omega⟩ = ∑ c' : Fin 10112, G c' := by
  rw [← Equiv.sum_comp (finProdFinEquiv : Fin 79 × Fin 128 ≃ Fin 10112) G, Fintype.sum_prod_type]
  refine Finset.sum_congr rfl fun k' _ => Finset.sum_congr rfl fun kk _ => congrArg G (Fin.ext ?_)
  show 128 * k'.val + kk.val = kk.val + 128 * k'.val
  omega

/-- The matrix product of the two arrays. -/
def prod_R1 (c : Dev nD) : Vec Ideal S10112x1024 .f32 := fun j => ∑ c' : Fin 10112, term_R1 V c (j 0) (j 1) c'

/-- Where `t % 79 = 78` all 79 column blocks are summed, which is the whole contraction. -/
theorem flushed_eq_R1 (c : Dev nD) (t : Fin cfg1.N) (hf : (cfg1.win 2).flush t = true) :
    (dat1 V c).flushed 2 t = ((cfg1.win 2).blk t).view.read (Elt Ideal) (prod_R1 V c) := by
  have h78 : t.val % 79 = 78 := (flush1_2 t).mp hf
  obtain ⟨-, -, -, -, e4, e5⟩ := idx_facts_R1 t
  show (cfg1.win 2).cut (grid1.coords t) ((dat1 V c).after 2 t) = _
  rw [after1_2, out1_last V c t h78]
  funext y
  obtain ⟨p, q, rfl⟩ : ∃ (p : Fin 1264) (q : Fin 1024), y = ix2 p q := ⟨y 0, y 1, eq_ix2 y⟩
  exact (acc_eq_R1 V c (t.val / 79) p q _ _ (by show win1_2.index t 0 * 1264 + 1 * p.val = _; omega)
    (by show win1_2.index t 1 * 1024 + 1 * q.val = _; omega) 78 t.val (by omega) t.isLt (by omega)).trans
    (sum_colBlocks_R1 _)

/-- Row r belongs to row block `r / 1264`, whose last point is `79 (r / 1264) + 78`. -/
theorem cover_R1 (j : S10112x1024.Idx) :
    ∃ t : Fin cfg1.N, (cfg1.win 2).flush t = true ∧ j ∈ ((cfg1.win 2).blk t).view.set := by
  have h0 : (j 0).val < 10112 := (j 0).isLt
  have h1 : (j 1).val < 1024 := (j 1).isLt
  obtain ⟨t, ht⟩ : ∃ t : Fin cfg1.N, t.val = 79 * ((j 0).val / 1264) + 78 :=
    ⟨⟨_, by rw [show cfg1.N = 632 from N_1]; omega⟩, rfl⟩
  obtain ⟨-, -, -, -, e4, e5⟩ := idx_facts_R1 t
  refine ⟨t, (flush1_2 t).mpr (by omega), ?_⟩
  show j ∈ ((View.whole main_v22).slice (win1_2.rect t)).set
  rw [View.set_slice_whole, Rect.mem_set_unit]
  intro a
  match a with
  | ⟨0, _⟩ =>
    show win1_2.index t 0 * 1264 ≤ (j 0).val ∧ (j 0).val < win1_2.index t 0 * 1264 + 1264
    omega
  | ⟨1, _⟩ =>
    show win1_2.index t 1 * 1024 ≤ (j 1).val ∧ (j 1).val < win1_2.index t 1 * 1024 + 1024
    omega

abbrev outArr_R1 (c : Dev nD) : Vec Ideal S10112x1024 .f32 := (dat1 (F := Ideal) V c).arrAt 2 cfg1.N

theorem arr1_apply (c : Dev nD) (r : Fin 10112) (n : Fin 1024) :
    outArr_R1 V c (ix2 r n) = ∑ c' : Fin 10112, lhsArr_R1 V c (ix2 r c') * rhsArr_R1 V c (ix2 c' n) :=
  congrFun ((dat1 V c).arrAt_eq_of_cover 2 (prod_R1 V c) (flushed_eq_R1 V c) cover_R1) (ix2 r n)

end Cert.KernelIdeal.Hand

end
-- ==== Proof.KI.ValR3.lean ====
import proofs.«426427_j36155034698037_1_alg».proof.Proof.KI.R3
import Idealize.ShloMosaic.Lib.StackMember
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx

/-- Adding a product into zero to the accumulator, read at one entry. -/
theorem pay2_apply_R3 (acc : Vec Ideal S1264x256 .f32) (a : Vec Ideal S1264x128 .bf16) (s : Vec Ideal S128x256 .bf16)
    (p : Fin 1264) (q : Fin 256) :
    k3_pay2 (F := Ideal) acc a s (ix2 p q) = acc (ix2 p q) + ∑ k : Fin 128, a (ix2 p k) * s (ix2 k q) := by
  unfold k3_pay2
  simp only [shapeCast_self]
  rw [addf_apply, matmul_zero_eq_dotGeneral]
  exact congrArg (acc (ix2 p q) + ·) (StackMember.dotGeneral_plain_apply none a s p q)

theorem idx_facts_R3 : ∀ t : Fin cfg3.N,
    win3_0.index t (0 : Fin 2) = t.val / 79 ∧ win3_0.index t (1 : Fin 2) = t.val % 79
    ∧ win3_1.index t (0 : Fin 2) = t.val % 79 ∧ win3_1.index t (1 : Fin 2) = 0
    ∧ win3_2.index t (0 : Fin 2) = t.val / 79 ∧ win3_2.index t (1 : Fin 2) = 0 :=
  (by decide +kernel : ∀ t : Fin grid3.N, _)

variable (V : (c : Dev nD) → (b : Ref sig .tc) → Buf (Elt Ideal) ((c : Thread nD τ).loc b))

abbrev lhsArr_R3 (c : Dev nD) : Vec Ideal S10112x10112 .bf16 := V c main_v15
abbrev rhsArr_R3 (c : Dev nD) : Vec Ideal S10112x256 .bf16 := V c main_v53
abbrev lhsBlk_R3 (c : Dev nD) (t : Fin cfg3.N) : Vec Ideal S1264x128 .bf16 := iblk3 V c 0 t
abbrev rhsBlk_R3 (c : Dev nD) (t : Fin cfg3.N) : Vec Ideal S128x256 .bf16 := iblk3 V c 1 t

/-- The summand of the matrix product at (r, n) for the contracted coordinate c'. -/
abbrev term_R3 (c : Dev nD) (r : Fin 10112) (n : Fin 256) (c' : Fin 10112) : EReal :=
  lhsArr_R3 V c (ix2 r c') * rhsArr_R3 V c (ix2 c' n)

/-- At point 79 i + k the operand blocks are block (i, k) of the left array and block (k, 0) of the right array. -/
theorem blk_sum_R3 (c : Dev nD) (t : Fin cfg3.N) (i k : ℕ) (hk : k < 79) (ht : t.val = 79 * i + k)
    (p : Fin 1264) (q : Fin 256) (r : Fin 10112) (n : Fin 256) (hr : r.val = 1264 * i + p.val) (hq : n.val = q.val) :
    ∑ kk : Fin 128, lhsBlk_R3 V c t (ix2 p kk) * rhsBlk_R3 V c t (ix2 kk q)
      = ∑ kk : Fin 128, term_R3 V c r n ⟨128 * k + kk.val, by omega⟩ := by
  obtain ⟨e0, e1, e2, e3, -⟩ := idx_facts_R3 t
  refine Finset.sum_congr rfl fun kk _ => congrArg₂ (· * ·)
    (congrArg (lhsArr_R3 V c) (Shape.idx_ext₂ ?_ ?_)) (congrArg (rhsArr_R3 V c) (Shape.idx_ext₂ ?_ ?_))
  · show win3_0.index t 0 * 1264 + 1 * p.val = r.val; omega
  · show win3_0.index t 1 * 128 + 1 * kk.val = 128 * k + kk.val; omega
  · show win3_1.index t 0 * 128 + 1 * kk.val = 128 * k + kk.val; omega
  · show win3_1.index t 1 * 256 + 1 * q.val = n.val; omega

/-- By induction on k: k + 1 steps from zero give the partial sum over the first k + 1 column blocks. -/
theorem acc_eq_R3 (c : Dev nD) (i : ℕ) (p : Fin 1264) (q : Fin 256) (r : Fin 10112) (n : Fin 256)
    (hr : r.val = 1264 * i + p.val) (hq : n.val = q.val) :
    ∀ (k m : ℕ) (hk : k < 79) (hm : m < cfg3.N), m = 79 * i + k →
      (outsAt3 V c m hm).2 (ix2 p q)
        = ∑ k' : Fin (k + 1), ∑ kk : Fin 128, term_R3 V c r n ⟨128 * k'.val + kk.val, by omega⟩
  | 0, m, hk, hm, e => by
    rw [sc3_first V c ⟨m, hm⟩ (by show m % 79 = 0; omega), pay2_apply_R3,
      show k3_pay1 (F := Ideal) (ix2 p q) = 0 from Ideal.ofBits_zero_f32, zero_add, Fin.sum_univ_one]
    exact blk_sum_R3 V c ⟨m, hm⟩ i 0 hk e p q r n hr hq
  | k + 1, m, hk, hm, e => by
    rw [sc3_next V c ⟨m, hm⟩ (by show m % 79 ≠ 0; omega), pay2_apply_R3]
    refine Eq.trans ?_ (Fin.sum_univ_castSucc _).symm
    exact congrArg₂ (· + ·) (acc_eq_R3 c i p q r n hr hq k (m - 1) (by omega) (by omega) (by omega))
      (blk_sum_R3 V c ⟨m, hm⟩ i (k + 1) hk e p q r n hr hq)

/-- A sum over 10112 = 79 · 128 indices, grouped into 79 runs of 128. -/
theorem sum_colBlocks_R3 {M : Type*} [AddCommMonoid M] (G : Fin 10112 → M) :
    ∑ k' : Fin 79, ∑ kk : Fin 128, G ⟨128 * k'.val + kk.val, by omega⟩ = ∑ c' : Fin 10112, G c' := by
  rw [← Equiv.sum_comp (finProdFinEquiv : Fin 79 × Fin 128 ≃ Fin 10112) G, Fintype.sum_prod_type]
  refine Finset.sum_congr rfl fun k' _ => Finset.sum_congr rfl fun kk _ => congrArg G (Fin.ext ?_)
  show 128 * k'.val + kk.val = kk.val + 128 * k'.val
  omega

/-- The matrix product of the two arrays. -/
def prod_R3 (c : Dev nD) : Vec Ideal S10112x256 .f32 := fun j => ∑ c' : Fin 10112, term_R3 V c (j 0) (j 1) c'

/-- Where `t % 79 = 78` all 79 column blocks are summed, which is the whole contraction. -/
theorem flushed_eq_R3 (c : Dev nD) (t : Fin cfg3.N) (hf : (cfg3.win 2).flush t = true) :
    (dat3 V c).flushed 2 t = ((cfg3.win 2).blk t).view.read (Elt Ideal) (prod_R3 V c) := by
  have h78 : t.val % 79 = 78 := (flush3_2 t).mp hf
  obtain ⟨-, -, -, -, e4, e5⟩ := idx_facts_R3 t
  show (cfg3.win 2).cut (grid3.coords t) ((dat3 V c).after 2 t) = _
  rw [after3_2, out3_last V c t h78]
  funext y
  obtain ⟨p, q, rfl⟩ : ∃ (p : Fin 1264) (q : Fin 256), y = ix2 p q := ⟨y 0, y 1, eq_ix2 y⟩
  exact (acc_eq_R3 V c (t.val / 79) p q _ _ (by show win3_2.index t 0 * 1264 + 1 * p.val = _; omega)
    (by show win3_2.index t 1 * 256 + 1 * q.val = _; omega) 78 t.val (by omega) t.isLt (by omega)).trans
    (sum_colBlocks_R3 _)

/-- Row r belongs to row block `r / 1264`, whose last point is `79 (r / 1264) + 78`. -/
theorem cover_R3 (j : S10112x256.Idx) :
    ∃ t : Fin cfg3.N, (cfg3.win 2).flush t = true ∧ j ∈ ((cfg3.win 2).blk t).view.set := by
  have h0 : (j 0).val < 10112 := (j 0).isLt
  have h1 : (j 1).val < 256 := (j 1).isLt
  obtain ⟨t, ht⟩ : ∃ t : Fin cfg3.N, t.val = 79 * ((j 0).val / 1264) + 78 :=
    ⟨⟨_, by rw [show cfg3.N = 632 from N_3]; omega⟩, rfl⟩
  obtain ⟨-, -, -, -, e4, e5⟩ := idx_facts_R3 t
  refine ⟨t, (flush3_2 t).mpr (by omega), ?_⟩
  show j ∈ ((View.whole main_v54).slice (win3_2.rect t)).set
  rw [View.set_slice_whole, Rect.mem_set_unit]
  intro a
  match a with
  | ⟨0, _⟩ =>
    show win3_2.index t 0 * 1264 ≤ (j 0).val ∧ (j 0).val < win3_2.index t 0 * 1264 + 1264
    omega
  | ⟨1, _⟩ =>
    show win3_2.index t 1 * 256 ≤ (j 1).val ∧ (j 1).val < win3_2.index t 1 * 256 + 256
    omega

abbrev outArr_R3 (c : Dev nD) : Vec Ideal S10112x256 .f32 := (dat3 (F := Ideal) V c).arrAt 2 cfg3.N

theorem arr3_apply (c : Dev nD) (r : Fin 10112) (n : Fin 256) :
    outArr_R3 V c (ix2 r n) = ∑ c' : Fin 10112, lhsArr_R3 V c (ix2 r c') * rhsArr_R3 V c (ix2 c' n) :=
  congrFun ((dat3 V c).arrAt_eq_of_cover 2 (prod_R3 V c) (flushed_eq_R3 V c) cover_R3) (ix2 r n)

end Cert.KernelIdeal.Hand

end
-- ==== Proof.LibGatherRows.lean ====
import Idealize.ShloMosaic.PureOps.Ideal
import Idealize.ShloMosaic.Lib.ValueIdx

noncomputable section

open Idealize.ShloMosaic Idealize.ShloMosaic.ValueIdx

namespace Cert.LibGatherRows

variable {N K E w : Nat}
  (wf : GatherDims.WF (⟨2, ![N, K]⟩ : Shape) (⟨2, ![E, 1]⟩ : Shape) (⟨2, ![E, K]⟩ : Shape) [1] [0] [] [0] [] 1 ![1, K])
  (idx : IVec (⟨2, ![E, 1]⟩ : Shape) w) (e : Fin E) (k : Fin K)

abbrev rowsDims : GatherDims (⟨2, ![N, K]⟩ : Shape) (⟨2, ![E, 1]⟩ : Shape) (⟨2, ![E, K]⟩ : Shape) :=
  ⟨[1], [0], [], [], [0], 1, ![1, K], wf⟩

theorem rows_siIdx (h : List.idxOf (0 : Fin 2) (rowsDims wf).startIndexMap < (rowsDims wf).startIndexMap.length) :
    (rowsDims wf).siIdx (ix2 e k) ⟨List.idxOf (0 : Fin 2) (rowsDims wf).startIndexMap, h⟩ = ix2 e (0 : Fin 1) :=
  funext fun b => Fin.ext (match b with | ⟨0, _⟩ => rfl | ⟨1, _⟩ => rfl)

-- Axis 0 is in the start index map and collapsed, so only the clamped start survives.
theorem rows_coord0 :
    (rowsDims wf).start (ix2 e k) idx 0 + (rowsDims wf).batchCoord (ix2 e k) 0 + (rowsDims wf).offCoord (ix2 e k) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 2) ∈ (rowsDims wf).startIndexMap from List.mem_singleton.mpr rfl), rows_siIdx wf e k]
  rfl

-- Axis 1 is neither indexed nor batched, so only the offset coordinate survives.
theorem rows_coord1 :
    (rowsDims wf).start (ix2 e k) idx 1 + (rowsDims wf).batchCoord (ix2 e k) 1 + (rowsDims wf).offCoord (ix2 e k) 1
      = k.val := by
  rw [GatherDims.batchCoord_eq_zero _ _ _ List.not_mem_nil]
  unfold GatherDims.start GatherDims.offCoord
  rw [dif_neg (show ¬ (1 : Fin 2) ∈ (rowsDims wf).startIndexMap from (by decide : (1 : Fin 2) ∉ ([0] : List (Fin 2)))),
    dif_pos (show (1 : Fin 2) ∈ (rowsDims wf).sKept from
      (GatherDims.mem_sKept _ _).mpr ⟨(by decide : (1 : Fin 2) ∉ ([0] : List (Fin 2))), List.not_mem_nil⟩)]
  exact Nat.zero_add _

theorem gather_rows_apply {α : Type} (hN : 0 < N) (x : (⟨2, ![N, K]⟩ : Shape).Idx → α) :
    Host.gather (rowsDims wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ => exact rows_coord0 wf idx e k
  | ⟨1, _⟩ => exact rows_coord1 wf idx e k

end Cert.LibGatherRows

end
-- ==== Proof.LibScatterSum.lean ====
import Idealize.ShloMosaic.PureOps.Ideal
import Idealize.ShloMosaic.Lib.ValueIdx

noncomputable section

open Idealize.ShloMosaic Idealize.ShloMosaic.ValueIdx

namespace Cert.LibScatterSum

-- An update lands somewhere exactly when every coordinate is in range, and then at the coordinatewise sum.
theorem resultIdx?_eq_some {s si u : Shape} (d : ScatterDims s si u) {w : Nat} (j : u.Idx) (idx : IVec si w)
    (i : s.Idx) : d.resultIdx? j idx = some i ↔ ∀ a, d.start j idx a + d.window j a = (i a).val := by
  unfold ScatterDims.resultIdx?
  split
  · rename_i hb
    rw [Option.some.injEq]
    refine ⟨fun he a => ?_, fun he => funext fun a => Fin.ext ((congrArg Int.toNat (he a)).trans (Int.toNat_natCast _))⟩
    subst he
    exact (Int.toNat_of_nonneg (hb a).1).symm
  · rename_i hb
    refine ⟨nofun, fun he => (hb fun a => ?_).elim⟩
    rw [he a]
    exact ⟨Int.natCast_nonneg _, Int.ofNat_lt.mpr (i a).isLt⟩

variable {N K E w : Nat}
  (h : ScatterDims.WF (⟨2, ![N, K]⟩ : Shape) (⟨2, ![E, 1]⟩ : Shape) (⟨2, ![E, K]⟩ : Shape) [1] [0] [0] 1)

abbrev rowsDims : ScatterDims (⟨2, ![N, K]⟩ : Shape) (⟨2, ![E, 1]⟩ : Shape) (⟨2, ![E, K]⟩ : Shape) := ⟨[1], [0], [0], 1, h⟩

theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ => exact Nat.lt_one_iff.mp c.isLt

-- Axis 0 is the one scattered axis, axis 1 the one window axis.
theorem rows_coord (j : (⟨2, ![E, K]⟩ : Shape).Idx) (idx : IVec (⟨2, ![E, 1]⟩ : Shape) w) :
    (rowsDims h).start j idx 0 + (rowsDims h).window j 0 = (idx (ix2 (j 0) (0 : Fin 1))).toInt ∧
      (rowsDims h).start j idx 1 + (rowsDims h).window j 1 = (j 1).val := by
  have m0 : (0 : Fin 2) ∈ (rowsDims h).scatterDimsToOperandDims := List.mem_singleton.mpr rfl
  have m1 : (1 : Fin 2) ∉ (rowsDims h).scatterDimsToOperandDims := by
    show (1 : Fin 2) ∉ ([0] : List (Fin 2)); decide
  have k0 : (0 : Fin 2) ∉ (rowsDims h).sKept := by
    show (0 : Fin 2) ∉ (List.finRange 2).filter (· ∉ ([0] : List (Fin 2))); decide
  have k1 : (1 : Fin 2) ∈ (rowsDims h).sKept := by
    show (1 : Fin 2) ∈ (List.finRange 2).filter (· ∉ ([0] : List (Fin 2))); decide
  unfold ScatterDims.start ScatterDims.window
  rw [dif_pos m0, dif_neg k0, dif_neg m1, dif_pos k1, rows_siIdx h j]
  exact ⟨Int.add_zero _, Int.zero_add _⟩

-- Re-index the updates by (row, column): by `rows_coord` the column must be `k` and the row's word `n`.
theorem scatterAdd_rows (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => by
    rw [resultIdx?_eq_some, Fin.forall_fin_two, (rows_coord h (ix2 e b) idx).1, (rows_coord h (ix2 e b) idx).2]
    exact and_congr Iff.rfl (Int.ofNat_inj.trans Fin.val_inj)
  simp only [hiff, ite_and, Finset.sum_ite_irrel, Finset.sum_ite_eq', Finset.mem_univ, if_true, Finset.sum_const_zero]

end Cert.LibScatterSum

end
-- ==== Proof.RefValue.lean ====
import proofs.«426427_j36155034698037_1_alg».proof.Proof.Gen.ReferenceIdeal.Read
import proofs.«426427_j36155034698037_1_alg».proof.Proof.Spec
import proofs.«426427_j36155034698037_1_alg».proof.Proof.Bn
import proofs.«426427_j36155034698037_1_alg».proof.Proof.LibGatherRows
import proofs.«426427_j36155034698037_1_alg».proof.Proof.LibScatterSum

noncomputable section

namespace Cert.ReferenceIdeal.RefValue

open Cert.ReferenceIdeal Cert.ReferenceIdeal.Gen Idealize.ShloMosaic Idealize.ShloMosaic.ValueIdx
open Finset

-- The sign test is 0 on a word that is not negative, so the select keeps the word.
theorem wrap_word (w : BitVec 32) (hw : 0 ≤ w.toInt) :
    Scalar.select (IntOp.cmpi .slt w 0#32) (IntOp.addi w 10000#32) w = w := by
  have h0 : ¬ IntOp.cmpi .slt w 0#32 = 1#1 := fun h => absurd (IntOp.cmpi_slt.mp h) (not_lt.mpr hw)
  rw [eq_zero_of_ne_one h0, select_zero]

-- The row scatter and the row gather read at an index, then the five array facts term by term.
theorem agg_eq {D : Nat}
    (wfS : ScatterDims.WF (⟨2, ![10000, D]⟩ : Shape) (⟨2, ![160000, 1]⟩ : Shape) (⟨2, ![160000, D]⟩ : Shape) [1] [0] [0] 1)
    (wfG : GatherDims.WF (⟨2, ![10000, D]⟩ : Shape) (⟨2, ![160000, 1]⟩ : Shape) (⟨2, ![160000, D]⟩ : Shape) [1] [0] [] [0] [] 1 ![1, D])
    (z sup : FVec Ideal (⟨2, ![10000, D]⟩ : Shape) .f32) (vb : FVec Ideal (⟨2, ![160000, D]⟩ : Shape) .f32)
    (roww colw : IVec (⟨2, ![160000, 1]⟩ : Shape) 32)
    (vals : Fin 160000 → EReal) (rows cols : Fin 160000 → BitVec 32)
    (h : Fin 10000 → Fin 1024 → EReal) (W : Fin 1024 → Fin D → EReal) (b : Fin D → EReal)
    (hz : ∀ i j, z (ix2 i j) = 0) (hv : ∀ e j, vb (ix2 e j) = vals e)
    (hr : ∀ e, roww (ix2 e (0 : Fin 1)) = rows e) (hc : ∀ e, colw (ix2 e (0 : Fin 1)) = cols e)
    (hs : ∀ n j, sup (ix2 n j) = Cert.Spec.supR h W b n j) (i : Fin 10000) (j : Fin D) :
    Host.scatterAdd (F := Ideal) (Cert.LibScatterSum.rowsDims wfS) z roww
        (mulf vb (Host.gather (Cert.LibGatherRows.rowsDims wfG) sup colw)) (ix2 i j)
      = Cert.Spec.aggR vals rows cols h W b i j := by
  unfold Host.scatterAdd Cert.Spec.aggR
  rw [Ideal.hostScatterAdd_def, Cert.LibScatterSum.scatterAdd_rows wfS, hz, zero_add]
  simp only [hr]
  refine Finset.sum_congr rfl fun e _ => ?_
  show FloatOps.mulf (vb (ix2 e j)) (Host.gather (Cert.LibGatherRows.rowsDims wfG) sup colw (ix2 e j)) = _
  rw [Ideal.mulf_def, Cert.LibGatherRows.gather_rows_apply wfG _ _ _ (by decide), hv, hs]
  refine congrArg (fun t => vals e * Cert.Spec.supR h W b t j) (Fin.ext ?_)
  show min _ _ = min _ _
  rw [hc]

variable (x0 : FVec Ideal S10000x1024 .f32) (x1 : FVec Ideal S160000 .f32) (x2 : FVec Ideal S1024x1024 .f32)
  (x3 x4 x5 : FVec Ideal S1024 .f32) (x6 : FVec Ideal S1024x256 .f32) (x7 x8 x9 : FVec Ideal S256 .f32)
  (x10 x11 : IVec S160000 32)

-- Both layers build this index array the same way; where the column word is not negative it is that word.
theorem colw1 (e : Fin 160000) (h : 0 ≤ (x11 (ix1 e)).toInt) :
    Read.val_main_v10 (F := Ideal) x11 (ix2 e (0 : Fin 1)) = x11 (ix1 e) := by
  rw [Read.val_main_v10_apply, show Read.idx_main_v10 (ix2 e (0 : Fin 1)) = ix1 e from eq_ix1 _, Read.val_main_v9_apply,
    Read.val_main_v6_apply, Read.val_main_v8_apply, Read.val_main_v5_apply, Read.val_main_v7_apply]
  exact wrap_word _ h

theorem sup1 (n : Fin 10000) (j : Fin 1024) :
    Read.val_main_v3 (F := Ideal) x0 x2 x3 (ix2 n j)
      = Cert.Spec.supR (fun n k => x0 (ix2 n k)) (fun k j => x2 (ix2 k j)) (fun j => x3 (ix1 j)) n j := by
  rw [Read.val_main_v3_apply, Read.val_main_v0_apply, Read.val_main_v2_apply, Read.val_main_v1_apply, Ideal.addf_def]
  exact congrArg₂ (· + ·) (Finset.sum_congr rfl fun k _ => congrArg₂ (· * ·) (congrArg x0 (eq_ix2 _)) (congrArg x2 (eq_ix2 _)))
    (congrArg x3 (eq_ix1 _))

-- `agg_eq` at the first layer's arrays.
theorem ref_agg1 (hcols : ∀ e : Fin 160000, 0 ≤ (x11 (ix1 e)).toInt) (i : Fin 10000) (j : Fin 1024) :
    Read.val_main_v16 (F := Ideal) x0 x1 x2 x3 x10 x11 (ix2 i j)
      = Cert.Spec.aggR (fun e => x1 (ix1 e)) (fun e => x10 (ix1 e)) (fun e => x11 (ix1 e))
          (fun n k => x0 (ix2 n k)) (fun k j => x2 (ix2 k j)) (fun j => x3 (ix1 j)) i j :=
  agg_eq scatter_S10000x1024_S160000x1_S160000x1024_1_0_0_1_wf gather_S10000x1024_S160000x1_S160000x1024_1_0_n_n_0_1_11024_wf
    (Read.val_main_v14 (F := Ideal)) (Read.val_main_v3 (F := Ideal) x0 x2 x3) (Read.val_main_v12 (F := Ideal) x1)
    (Read.val_main_v15 (F := Ideal) x10) (Read.val_main_v10 (F := Ideal) x11) _ _ _ _ _ _
    (fun _ _ => (Read.val_main_v14_apply _).trans Ideal.ofBits_zero_f32)
    (fun _ _ => by rw [Read.val_main_v12_apply, Read.val_main_v4_apply]; exact congrArg x1 (eq_ix1 _))
    (fun _ => (Read.val_main_v15_apply x10 _).trans (congrArg x10 (eq_ix1 _)))
    (fun e => colw1 x11 e (hcols e)) (sup1 x0 x2 x3) i j

-- Definitional: both sides are one chain of whole-array operations on the first aggregate.
theorem ref_h :
    Read.val_main_v40 (F := Ideal) x0 x1 x2 x3 x4 x5 x10 x11
      = Cert.Bn.relu1 (Cert.Bn.bn1 (Read.val_main_v16 (F := Ideal) x0 x1 x2 x3 x10 x11) x4 x5) := rfl

theorem sup2 (n : Fin 10000) (j : Fin 256) :
    Read.val_main_v44 (F := Ideal) x0 x1 x2 x3 x4 x5 x6 x7 x10 x11 (ix2 n j)
      = Cert.Spec.supR (fun n k => Read.val_main_v40 (F := Ideal) x0 x1 x2 x3 x4 x5 x10 x11 (ix2 n k))
          (fun k j => x6 (ix2 k j)) (fun j => x7 (ix1 j)) n j := by
  rw [Read.val_main_v44_apply, Read.val_main_v41_apply, Read.val_main_v43_apply, Read.val_main_v42_apply, Ideal.addf_def]
  exact congrArg₂ (· + ·) (Finset.sum_congr rfl fun k _ => congrArg₂ (· * ·)
    (congrArg (Read.val_main_v40 (F := Ideal) x0 x1 x2 x3 x4 x5 x10 x11) (eq_ix2 _)) (congrArg x6 (eq_ix2 _)))
    (congrArg x7 (eq_ix1 _))

-- `agg_eq` at the second layer's arrays, the features being the hidden ones.
theorem ref_agg2 (hcols : ∀ e : Fin 160000, 0 ≤ (x11 (ix1 e)).toInt) (i : Fin 10000) (j : Fin 256) :
    Read.val_main_v57 (F := Ideal) x0 x1 x2 x3 x4 x5 x6 x7 x10 x11 (ix2 i j)
      = Cert.Spec.aggR (fun e => x1 (ix1 e)) (fun e => x10 (ix1 e)) (fun e => x11 (ix1 e))
          (fun n k => Read.val_main_v40 (F := Ideal) x0 x1 x2 x3 x4 x5 x10 x11 (ix2 n k))
          (fun k j => x6 (ix2 k j)) (fun j => x7 (ix1 j)) i j :=
  agg_eq scatter_S10000x256_S160000x1_S160000x256_1_0_0_1_wf gather_S10000x256_S160000x1_S160000x256_1_0_n_n_0_1_1256_wf
    (Read.val_main_v55 (F := Ideal)) (Read.val_main_v44 (F := Ideal) x0 x1 x2 x3 x4 x5 x6 x7 x10 x11)
    (Read.val_main_v53 (F := Ideal) x1) (Read.val_main_v56 (F := Ideal) x10) (Read.val_main_v51 (F := Ideal) x11) _ _ _ _ _ _
    (fun _ _ => (Read.val_main_v55_apply _).trans Ideal.ofBits_zero_f32)
    (fun _ _ => by rw [Read.val_main_v53_apply, Read.val_main_v45_apply]; exact congrArg x1 (eq_ix1 _))
    (fun _ => (Read.val_main_v56_apply x10 _).trans (congrArg x10 (eq_ix1 _)))
    (fun e => colw1 x11 e (hcols e)) (sup2 x0 x1 x2 x3 x4 x5 x6 x7 x10 x11) i j

-- Definitional, as `ref_h`, on the second aggregate.
theorem ref_out :
    Read.val_main_v80 (F := Ideal) x0 x1 x2 x3 x4 x5 x6 x7 x8 x9 x10 x11
      = Cert.Bn.bn2 (Read.val_main_v57 (F := Ideal) x0 x1 x2 x3 x4 x5 x6 x7 x10 x11) x8 x9 := rfl

end Cert.ReferenceIdeal.RefValue

end
-- ==== Proof.SpecLaws.lean ====
import proofs.«426427_j36155034698037_1_alg».proof.Proof.Spec
import Mathlib.Data.EReal.Basic
import Mathlib.Algebra.BigOperators.Group.Finset.Basic
import Mathlib.Algebra.BigOperators.Ring.Finset
import Mathlib.Tactic.SplitIfs

noncomputable section

namespace Cert.Spec

open Finset

theorem Fin'.add {x y : EReal} : Fin' x → Fin' y → Fin' (x + y) := by
  rintro ⟨a, rfl⟩ ⟨b, rfl⟩
  exact ⟨a + b, (EReal.coe_add a b).symm⟩

theorem Fin'.mul {x y : EReal} : Fin' x → Fin' y → Fin' (x * y) := by
  rintro ⟨a, rfl⟩ ⟨b, rfl⟩
  exact ⟨a * b, (EReal.coe_mul a b).symm⟩

theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

-- A family of real numbers in the extended reals is the coercion of a real family.
theorem Fin'.family {ι : Type*} {a : ι → EReal} (ha : ∀ i, Fin' (a i)) : ∃ g : ι → ℝ, a = fun i => (g i : EReal) :=
  ⟨fun i => (ha i).choose, funext fun i => (ha i).choose_spec⟩

theorem Fin'.sum {ι : Type*} (s : Finset ι) (f : ι → EReal) (hf : ∀ i, Fin' (f i)) : Fin' (∑ i ∈ s, f i) := by
  obtain ⟨g, rfl⟩ := Fin'.family hf
  exact ⟨_, (coe_sum s g).symm⟩

-- Both sides are the coercion of one real expression, and there multiplication distributes.
theorem sum_mul_fin {ι : Type*} (s : Finset ι) (a : ι → EReal) (x : EReal)
    (ha : ∀ i, Fin' (a i)) (hx : Fin' x) : (∑ i ∈ s, a i) * x = ∑ i ∈ s, a i * x := by
  obtain ⟨r, rfl⟩ := hx
  obtain ⟨g, rfl⟩ := Fin'.family ha
  simp only [← EReal.coe_mul, ← coe_sum, Finset.sum_mul]

variable {D : ℕ} (vals : Fin 160000 → EReal) (rows cols : Fin 160000 → BitVec 32)
  (h : Fin 10000 → Fin 1024 → EReal) (W : Fin 1024 → Fin D → EReal) (b : Fin D → EReal)
  (hv : ∀ e, Fin' (vals e)) (hh : ∀ n k, Fin' (h n k)) (hW : ∀ k j, Fin' (W k j)) (hb : ∀ j, Fin' (b j))

include hh hW hb in
theorem supR_fin (n : Fin 10000) (j : Fin D) : Fin' (supR h W b n j) :=
  (Fin'.sum _ _ fun k => (hh n k).mul (hW k j)).add (hb j)

include hh hW hb in
theorem supK_fin (c : Fin 10112) (j : Fin D) : Fin' (supK h W b c j) := by
  refine (Fin'.sum _ _ fun k => Fin'.mul ?_ (hW k j)).add (hb j)
  unfold padRow
  split
  exacts [hh _ k, ⟨0, rfl⟩]

include hv hh hW hb in
theorem aggR_fin (i : Fin 10000) (j : Fin D) : Fin' (aggR vals rows cols h W b i j) :=
  Fin'.sum _ _ fun e => (hv e).mul (supR_fin h W b hh hW hb _ j)

-- Below 10000 the padded row is the feature row.
theorem supK_of_lt (c : Fin 10112) (hc : c.val < 10000) (j : Fin D) : supK h W b c j = supR h W b ⟨c.val, hc⟩ j := by
  unfold supK supR padRow
  simp only [dif_pos hc]

include hv in
-- Distribute the factor over the entry's defining sum, whose terms are all real.
theorem adj_mul (r c : Fin 10112) (s : EReal) (hs : Fin' s) :
    adj vals rows cols r c * s
      = ∑ e, if (rows e).toInt = (r.val : ℤ) ∧ (cols e).toInt = (c.val : ℤ) then vals e * s else 0 := by
  unfold adj
  rw [sum_mul_fin _ _ _ (fun e => by split; exacts [hv e, ⟨0, rfl⟩]) hs]
  simp only [ite_mul, zero_mul]

-- Only the term with `c = x` survives.
theorem sum_ind (x : ℤ) (hx0 : 0 ≤ x) (hx1 : x < 10112) (f : Fin 10112 → EReal) :
    (∑ c : Fin 10112, if x = (c.val : ℤ) then f c else 0) = f ⟨x.toNat, by omega⟩ := by
  rw [Finset.sum_eq_single (⟨x.toNat, by omega⟩ : Fin 10112) (fun c _ hne => if_neg fun hxc => hne (Fin.ext ?_))
    (fun hnm => absurd (Finset.mem_univ _) hnm), if_pos]
  · show x = ((x.toNat : ℕ) : ℤ)
    omega
  · show c.val = x.toNat
    omega

-- Only the edge's source column survives, and it is a node row.
theorem edge_term (v : EReal) (e : Fin 160000) (hc : 0 ≤ (cols e).toInt ∧ (cols e).toInt < 10000) (j : Fin D) :
    (∑ c : Fin 10112, if (cols e).toInt = (c.val : ℤ) then v * supK h W b c j else 0)
      = v * supR h W b (src cols e) j := by
  have hlt : (cols e).toInt.toNat < 10000 := by omega
  rw [sum_ind (cols e).toInt hc.1 (by omega) (fun c => v * supK h W b c j), supK_of_lt h W b _ hlt j]
  exact congrArg (fun t => v * supR h W b t j) (Fin.ext (by show (cols e).toInt.toNat = min (cols e).toInt.toNat (10000 - 1); omega))

include hv hh hW hb in
-- Distribute each entry, exchange the two sums, collapse the inner one, keep the edges into `r`.
theorem aggK_row (hcols : ∀ e, 0 ≤ (cols e).toInt ∧ (cols e).toInt < 10000) (r : Fin 10112) (j : Fin D) :
    (∑ c : Fin 10112, adj vals rows cols r c * supK h W b c j)
      = ∑ e ∈ univ.filter (fun e : Fin 160000 => (rows e).toInt = (r.val : ℤ)),
          vals e * supR h W b (src cols e) j := by
  rw [Finset.sum_congr rfl fun c _ => adj_mul vals rows cols hv r c _ (supK_fin h W b hh hW hb c j), Finset.sum_comm,
    Finset.sum_filter]
  simp only [ite_and, Finset.sum_ite_irrel, Finset.sum_const_zero, fun v e => edge_term cols h W b v e (hcols e) j]

include hv hh hW hb in
-- `aggK_row` at a node row `i < 10000`.
theorem layer_eq (hrows : ∀ e, 0 ≤ (rows e).toInt) (hcols : ∀ e, 0 ≤ (cols e).toInt ∧ (cols e).toInt < 10000)
    (i : Fin 10000) (j : Fin D) : aggK vals rows cols h W b i j = aggR vals rows cols h W b i j :=
  aggK_row vals rows cols h W b hv hh hW hb hcols ⟨i.val, by omega⟩ j

end Cert.Spec

end
-- ==== Proof.BnLaws.lean ====
import proofs.«426427_j36155034698037_1_alg».proof.Proof.Spec
import proofs.«426427_j36155034698037_1_alg».proof.Proof.Bn
import Idealize.ShloMosaic.Lib.IdealHost

noncomputable section

namespace Cert.Bn

open Idealize.ShloMosaic Idealize.ShloMosaic.ValueIdx Cert.Spec

variable {x y : EReal}

/-- A real number that is not negative, among the extended reals. -/
def NN (x : EReal) : Prop := ∃ r : ℝ, 0 ≤ r ∧ x = r

/-- A positive real number, among the extended reals. -/
def Pos' (x : EReal) : Prop := ∃ r : ℝ, 0 < r ∧ x = r

theorem fin_zero : Fin' 0 := ⟨0, rfl⟩

theorem nn_zero : NN 0 := ⟨0, le_rfl, rfl⟩

theorem fin_add : Fin' x → Fin' y → Fin' (x + y)
  | ⟨r, hr⟩, ⟨s, hs⟩ => ⟨r + s, by rw [hr, hs, EReal.coe_add]⟩

theorem fin_sub : Fin' x → Fin' y → Fin' (x - y)
  | ⟨r, hr⟩, ⟨s, hs⟩ => ⟨r - s, by rw [hr, hs, EReal.coe_sub]⟩

theorem fin_mul : Fin' x → Fin' y → Fin' (x * y)
  | ⟨r, hr⟩, ⟨s, hs⟩ => ⟨r * s, by rw [hr, hs, EReal.coe_mul]⟩

theorem fin_max (hx : Fin' x) (hy : Fin' y) : Fin' (max x y) := by
  rcases max_choice x y with h | h <;> rw [h] <;> assumption

theorem nn_add : NN x → NN y → NN (x + y)
  | ⟨r, hr, ex⟩, ⟨s, hs, ey⟩ => ⟨r + s, add_nonneg hr hs, by rw [ex, ey, EReal.coe_add]⟩

theorem nn_mul_self : Fin' x → NN (x * x)
  | ⟨r, e⟩ => ⟨r * r, mul_self_nonneg r, by rw [e, EReal.coe_mul]⟩

theorem pos_add : NN x → Pos' y → Pos' (x + y)
  | ⟨r, hr, ex⟩, ⟨s, hs, ey⟩ => ⟨r + s, add_pos_of_nonneg_of_pos hr hs, by rw [ex, ey, EReal.coe_add]⟩

theorem fin_div_pos : Fin' x → Pos' y → Fin' (Ideal.div x y)
  | ⟨r, ex⟩, ⟨s, hs, ey⟩ => ⟨r * (1 / s), by rw [ex, ey, Ideal.div_coe hs.ne', EReal.coe_mul]⟩

theorem nn_div_pos : NN x → Pos' y → NN (Ideal.div x y)
  | ⟨r, hr, ex⟩, ⟨s, hs, ey⟩ =>
    ⟨r * (1 / s), mul_nonneg hr (one_div_pos.mpr hs).le, by rw [ex, ey, Ideal.div_coe hs.ne', EReal.coe_mul]⟩

theorem pos_sqrt : Pos' x → Pos' (Ideal.sqrt x)
  | ⟨r, hr, e⟩ => ⟨√r, Real.sqrt_pos.mpr hr, by rw [e, Ideal.sqrt_coe, if_neg hr.le.not_gt]⟩

theorem pos_count : Pos' (Ideal.ofBits .f32 0x461C4000#32) :=
  ⟨10000, by norm_num, by simp [Ideal.ofBits, Ideal.ieee, -EReal.coe_mul]; norm_num⟩

theorem pos_eps : Pos' (Ideal.ofBits .f32 0x3727C5AC#32) :=
  ⟨(10995116 : ℝ) * (2 : ℝ) ^ (-40 : ℤ), by positivity, by simp [Ideal.ofBits, Ideal.ieee, -EReal.coe_mul]⟩

/-- A column mean stays in a class holding zero and closed under sums and division by a positive real. -/
theorem mean_closed {P : EReal → Prop} (h0 : P 0) (hadd : ∀ {x y}, P x → P y → P (x + y))
    (hdiv : ∀ {x y}, P x → Pos' y → P (Ideal.div x y)) {s t : Shape} {axes : List (Fin s.rank)} (a : FVec Ideal s .f32)
    (h : s.ReducesTo axes t) (hu : 0 < S_.numel) (hb : S_.BroadcastsInDim t ![]) (ha : ∀ i, P (a i)) (j : t.Idx) :
    P (Host.divf (Host.reduceAdd a (constant (F := Ideal) S_ .f32 0x00000000#32) h hu)
      (broadcastInDim t ![] hb (constant (F := Ideal) S_ .f32 0x461C4000#32)) j) := by
  rw [hostDivf_apply, hostReduceAdd_apply, broadcastInDim_scalar_apply, constant_apply, constant_apply,
    Ideal.ofBits_zero_f32]
  exact hdiv (hadd h0 (Finset.sum_induction _ P (fun _ _ => hadd) h0 fun i _ => ha i)) pos_count

/-- A row repeated along the node axis reads the row at some index. -/
theorem fin_rep1 (v : FVec Ideal S1024 .f32) (hv : ∀ j, Fin' (v j)) (i : S10000x1024.Idx) : Fin' (rep1 v i) := hv _

/-- The mean is real and the variance a real that is not negative, so the root of variance plus ε is a positive real. -/
theorem relu_bn1_fin (a : FVec Ideal S10000x1024 .f32) (g be : FVec Ideal S1024 .f32)
    (ha : ∀ y, Cert.Spec.Fin' (a y)) (hg : ∀ y, Cert.Spec.Fin' (g y)) (hbe : ∀ y, Cert.Spec.Fin' (be y)) :
    ∀ y, Cert.Spec.Fin' (relu1 (bn1 a g be) y) := by
  intro y
  have hm := mean_closed fin_zero fin_add fin_div_pos a (axes := [0]) (t := S1024) (by decide) (by decide) (by decide) ha
  unfold relu1
  rw [maximumf_apply, broadcastInDim_scalar_apply, constant_apply, Ideal.ofBits_zero_f32]
  refine fin_max ?_ fin_zero
  show Fin' ((addf _ _ : FVec Ideal S10000x1024 .f32) y)
  rw [addf_apply, mulf_apply, subf_apply]
  refine fin_add (fin_mul (fin_sub (ha y) (fin_rep1 _ hm y)) (fin_rep1 _ (fun z => ?_) y)) (fin_rep1 _ hbe y)
  rw [hostDivf_apply]
  refine fin_div_pos (hg z) ?_
  show Pos' (Ideal.sqrt _)
  rw [addf_apply, broadcastInDim_scalar_apply, constant_apply]
  refine pos_sqrt (pos_add (mean_closed nn_zero nn_add nn_div_pos _ _ _ _ (fun i => ?_) z) pos_eps)
  rw [mulf_apply, subf_apply]
  exact nn_mul_self (fin_sub (ha i) (fin_rep1 _ hm i))

end Cert.Bn

end
-- ==== Proof.PreFacts.lean ====
import proofs.«426427_j36155034698037_1_alg».proof.Pre_finite_inputs
import proofs.«426427_j36155034698037_1_alg».proof.Proof.Gen.Pre_finite_inputs
import proofs.«426427_j36155034698037_1_alg».proof.Proof.Spec
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs Cert.Spec

instance : Subsingleton S_.Idx := ⟨fun _ _ => funext fun d => d.elim0⟩

-- At ⊤ and at ⊥ the absolute value is ⊤, which is not below ⊤: so `x` is neither.
theorem real_of_abs_lt (x : EReal)
    (h : Ideal.cmp .olt (max x (-x)) (Ideal.ofBits .f32 0x7F800000#32) = 1#1) : Fin' x := by
  rw [show Ideal.ofBits .f32 0x7F800000#32 = (⊤ : EReal) by simp [Ideal.ofBits, Ideal.ieee]] at h
  induction x using EReal.rec with
  | coe r => exact ⟨r, rfl⟩
  | _ => exact absurd h (by simp [Ideal.cmp])

theorem and_at (a b : IVec S_ 1) (i : S_.Idx) : andi a b i = 1#1 ↔ a i = 1#1 ∧ b i = 1#1 :=
  IntOp.andi_eq_one

-- Each conjunct is an `and`-reduction that equals 1, so its comparison holds at every entry.
theorem of_pre (x0 : FVec Ideal S10000x1024 .f32) (x1 : FVec Ideal S160000 .f32) (x2 : FVec Ideal S1024x1024 .f32)
    (x3 x4 x5 : FVec Ideal S1024 .f32) (x6 : FVec Ideal S1024x256 .f32) (x7 x8 x9 : FVec Ideal S256 .f32)
    (x10 x11 : IVec S160000 32)
    (h : Cert.Pre_finite_inputs.fn (F := Ideal) x0 x1 x2 x3 x4 x5 x6 x7 x8 x9 x10 x11 = fun _ => 1#1) :
    (∀ y, Fin' (x0 y)) ∧ (∀ y, Fin' (x1 y)) ∧ (∀ y, Fin' (x2 y)) ∧ (∀ y, Fin' (x3 y)) ∧ (∀ y, Fin' (x4 y))
      ∧ (∀ y, Fin' (x5 y)) ∧ (∀ y, Fin' (x6 y)) ∧ (∀ y, Fin' (x7 y))
      ∧ (∀ y, 0 ≤ (x10 y).toInt) ∧ (∀ y, 0 ≤ (x11 y).toInt ∧ (x11 y).toInt < 10000) := by
  have e := congrFun h ValueIdx.ix0
  dsimp only [fn, fn_part1, fn_part2, fn_part3] at e
  simp only [and_at] at e
  obtain ⟨⟨⟨⟨⟨⟨⟨⟨⟨⟨⟨⟨h0, h1⟩, h2⟩, h3⟩, h4⟩, h5⟩, h6⟩, h7⟩, -⟩, -⟩, h10⟩, h11⟩, h12⟩ := e
  exact ⟨fun y => real_of_abs_lt _ (Host.reduce_andi_all _ _ _ _ _ h0 y), fun y => real_of_abs_lt _ (Host.reduce_andi_all _ _ _ _ _ h1 y),
    fun y => real_of_abs_lt _ (Host.reduce_andi_all _ _ _ _ _ h2 y), fun y => real_of_abs_lt _ (Host.reduce_andi_all _ _ _ _ _ h3 y),
    fun y => real_of_abs_lt _ (Host.reduce_andi_all _ _ _ _ _ h4 y), fun y => real_of_abs_lt _ (Host.reduce_andi_all _ _ _ _ _ h5 y),
    fun y => real_of_abs_lt _ (Host.reduce_andi_all _ _ _ _ _ h6 y), fun y => real_of_abs_lt _ (Host.reduce_andi_all _ _ _ _ _ h7 y),
    fun y => IntOp.cmpi_sge.mp (Host.reduce_andi_all _ _ _ _ _ h10 y),
    fun y => ⟨IntOp.cmpi_sge.mp (Host.reduce_andi_all _ _ _ _ _ h11 y), IntOp.cmpi_slt.mp (Host.reduce_andi_all _ _ _ _ _ h12 y)⟩⟩

end Cert.PreFacts

end
-- ==== Proof.Bridge.lean ====
import proofs.«426427_j36155034698037_1_alg».proof.Proof.KI.Run
import proofs.«426427_j36155034698037_1_alg».proof.Proof.KI.HostA
import proofs.«426427_j36155034698037_1_alg».proof.Proof.KI.HostB
import proofs.«426427_j36155034698037_1_alg».proof.Proof.KI.ValA0
import proofs.«426427_j36155034698037_1_alg».proof.Proof.KI.ValA2
import proofs.«426427_j36155034698037_1_alg».proof.Proof.KI.ValR1
import proofs.«426427_j36155034698037_1_alg».proof.Proof.KI.ValR3
import proofs.«426427_j36155034698037_1_alg».proof.Proof.RefValue
import proofs.«426427_j36155034698037_1_alg».proof.Proof.SpecLaws
import proofs.«426427_j36155034698037_1_alg».proof.Proof.BnLaws
import proofs.«426427_j36155034698037_1_alg».proof.Proof.PreFacts

noncomputable section

namespace Cert.Bridge

open Idealize.ShloMosaic Idealize.ShloMosaic.TcCoe Idealize.SL.Sem Idealize.ShloMosaic.ValueIdx
open Cert.KernelIdeal Cert.KernelIdeal.Gen Cert.KernelIdeal.Hand Cert.Spec

variable (m : (ℓ : Loc nD τ sig) → Buf (Elt Ideal) ℓ) (ρ : Dev nD → PrngReg) (c : Dev nD)

abbrev A0 : FVec Ideal S10000x1024 .f32 := m ((c : Thread nD τ).loc main_arg0)
abbrev A1 : FVec Ideal S160000 .f32 := m ((c : Thread nD τ).loc main_arg1)
abbrev A2 : FVec Ideal S1024x1024 .f32 := m ((c : Thread nD τ).loc main_arg2)
abbrev A3 : FVec Ideal S1024 .f32 := m ((c : Thread nD τ).loc main_arg3)
abbrev A4 : FVec Ideal S1024 .f32 := m ((c : Thread nD τ).loc main_arg4)
abbrev A5 : FVec Ideal S1024 .f32 := m ((c : Thread nD τ).loc main_arg5)
abbrev A6 : FVec Ideal S1024x256 .f32 := m ((c : Thread nD τ).loc main_arg6)
abbrev A7 : FVec Ideal S256 .f32 := m ((c : Thread nD τ).loc main_arg7)
abbrev A8 : FVec Ideal S256 .f32 := m ((c : Thread nD τ).loc main_arg8)
abbrev A9 : FVec Ideal S256 .f32 := m ((c : Thread nD τ).loc main_arg9)
abbrev A10 : IVec S160000 32 := m ((c : Thread nD τ).loc main_arg10)
abbrev A11 : IVec S160000 32 := m ((c : Thread nD τ).loc main_arg11)

section
variable (f0 : ∀ y, Fin' (A0 m c y)) (f1 : ∀ y, Fin' (A1 m c y)) (f2 : ∀ y, Fin' (A2 m c y))
  (f3 : ∀ y, Fin' (A3 m c y)) (f4 : ∀ y, Fin' (A4 m c y)) (f5 : ∀ y, Fin' (A5 m c y))
  (f6 : ∀ y, Fin' (A6 m c y)) (f7 : ∀ y, Fin' (A7 m c y))
  (hr : ∀ e : Fin 160000, 0 ≤ (A10 m c (ix1 e)).toInt)
  (hc : ∀ e : Fin 160000, 0 ≤ (A11 m c (ix1 e)).toInt ∧ (A11 m c (ix1 e)).toInt < 10000)

include f0 f1 f2 f3 hr hc in
-- Read the product entry by entry as `aggK`, then `layer_eq`.
theorem agg1_eq [Cert.ReferenceIdeal.Facts] :
    sl1 (V6 m ρ c main_v22) = Cert.ReferenceIdeal.Read.val_main_v16 (F := Ideal) (A0 m c) (A1 m c) (A2 m c) (A3 m c) (A10 m c) (A11 m c) := by
  funext y
  obtain ⟨i, j, rfl⟩ : ∃ (i : Fin 10000) (j : Fin 1024), y = ix2 i j := ⟨y 0, y 1, eq_ix2 y⟩
  rw [sl1_apply, v22_eq]
  refine (arr1_apply (V5 m ρ) c ⟨i.val, by omega⟩ j).trans ?_
  rw [Cert.ReferenceIdeal.RefValue.ref_agg1 _ _ _ _ _ _ (fun e => (hc e).1) i j,
    ← layer_eq _ _ _ _ _ _ (fun e => f1 _) (fun n k => f0 _) (fun k j => f2 _) (fun j => f3 _) hr hc i j]
  refine Finset.sum_congr rfl fun c' _ => congrArg₂ HMul.hMul ?_ ?_
  · show V5 m ρ c main_v15 (ix2 _ c') = _
    rw [v15_keep5]
    exact v15_apply m ρ c hr (fun e => (hc e).1) _ c'
  · show V5 m ρ c main_v21 (ix2 c' j) = _
    exact (v21_apply m ρ c c' j).trans ((arr0_apply (V3 m ρ) c c' j).trans (congrArg₂ HAdd.hAdd
      (Finset.sum_congr rfl fun k _ => congrArg₂ HMul.hMul (v17_apply m ρ c c' k) (v18_apply m ρ c k j))
      (v19_apply m ρ c j)))

include f0 f1 f2 f3 f4 f5 hc in
-- The second layer's `hh`: batch normalisation and the rectifier keep a real array real.
theorem h_fin [Cert.ReferenceIdeal.Facts] (y) :
    Fin' (Cert.ReferenceIdeal.Read.val_main_v40 (F := Ideal) (A0 m c) (A1 m c) (A2 m c) (A3 m c) (A4 m c) (A5 m c) (A10 m c) (A11 m c) y) := by
  rw [Cert.ReferenceIdeal.RefValue.ref_h]
  refine Cert.Bn.relu_bn1_fin _ _ _ (fun z => ?_) f4 f5 y
  obtain ⟨i, j, rfl⟩ : ∃ (i : Fin 10000) (j : Fin 1024), z = ix2 i j := ⟨z 0, z 1, eq_ix2 z⟩
  rw [Cert.ReferenceIdeal.RefValue.ref_agg1 _ _ _ _ _ _ (fun e => (hc e).1) i j]
  exact aggR_fin _ _ _ _ _ _ (fun e => f1 _) (fun n k => f0 _) (fun k j => f2 _) (fun j => f3 _) i j

include f0 f1 f2 f3 f4 f5 f6 f7 hr hc in
-- As `agg1_eq`, over the hidden features, which both programs compute alike.
theorem agg2_eq [Cert.ReferenceIdeal.Facts] :
    sl2 (V14 m ρ c main_v54) = Cert.ReferenceIdeal.Read.val_main_v57 (F := Ideal) (A0 m c) (A1 m c) (A2 m c) (A3 m c) (A4 m c) (A5 m c) (A6 m c) (A7 m c) (A10 m c) (A11 m c) := by
  funext y
  obtain ⟨i, j, rfl⟩ : ∃ (i : Fin 10000) (j : Fin 256), y = ix2 i j := ⟨y 0, y 1, eq_ix2 y⟩
  rw [sl2_apply, v54_eq]
  refine (arr3_apply (V13 m ρ) c ⟨i.val, by omega⟩ j).trans ?_
  rw [Cert.ReferenceIdeal.RefValue.ref_agg2 _ _ _ _ _ _ _ _ _ _ (fun e => (hc e).1) i j,
    ← layer_eq _ _ _ _ _ _ (fun e => f1 _) (fun n k => h_fin m c f0 f1 f2 f3 f4 f5 hc _) (fun k j => f6 _) (fun j => f7 _) hr hc i j]
  refine Finset.sum_congr rfl fun c' _ => congrArg₂ HMul.hMul ?_ ?_
  · show V13 m ρ c main_v15 (ix2 _ c') = _
    rw [v15_keep13, v15_keep5]
    exact v15_apply m ρ c hr (fun e => (hc e).1) _ c'
  · show V13 m ρ c main_v53 (ix2 c' j) = _
    refine (v53_apply m ρ c c' j).trans ((arr2_apply (V11 m ρ) c c' j).trans (congrArg₂ HAdd.hAdd
      (Finset.sum_congr rfl fun k _ => congrArg₂ HMul.hMul ((v49_apply m ρ c c' k).trans ?_) (v50_apply m ρ c k j))
      (v51_apply m ρ c j)))
    rw [v47_eq, Cert.ReferenceIdeal.RefValue.ref_h, agg1_eq m ρ c f0 f1 f2 f3 hr hc]

end

-- Both sides are `bn2` of aggregates that `agg2_eq` identifies.
theorem value_eq [Cert.KernelIdeal.Facts] [Cert.ReferenceIdeal.Facts] [Cert.Pre_finite_inputs.Facts]
    (hpre : Cert.Pre_finite_inputs.fn (F := Ideal) (A0 m c) (A1 m c) (A2 m c) (A3 m c) (A4 m c) (A5 m c) (A6 m c) (A7 m c)
      (A8 m c) (A9 m c) (A10 m c) (A11 m c) = fun _ => 1#1) :
    W15 m ρ c (Proc.devRef .tc main_v78)
      = Cert.ReferenceIdeal.Read.val_main_v80 (F := Ideal) (A0 m c) (A1 m c) (A2 m c) (A3 m c) (A4 m c) (A5 m c) (A6 m c) (A7 m c)
          (A8 m c) (A9 m c) (A10 m c) (A11 m c) := by
  obtain ⟨f0, f1, f2, f3, f4, f5, f6, f7, hrows, hcols⟩ := Cert.PreFacts.of_pre _ _ _ _ _ _ _ _ _ _ _ _ hpre
  rw [v78_eq, Cert.ReferenceIdeal.RefValue.ref_out,
    agg2_eq m ρ c f0 f1 f2 f3 f4 f5 f6 f7 (fun e => hrows _) (fun e => hcols _)]

end Cert.Bridge

end
-- ==== Proof.lean ====
import proofs.«426427_j36155034698037_1_alg».proof.Defs
import proofs.«426427_j36155034698037_1_alg».proof.Proof.Gen.Kernel
import proofs.«426427_j36155034698037_1_alg».proof.Proof.Gen.KernelIdeal
import proofs.«426427_j36155034698037_1_alg».proof.Proof.Gen.ReferenceIdeal
import proofs.«426427_j36155034698037_1_alg».proof.Proof.Gen.ReferenceIdeal.Run
import proofs.«426427_j36155034698037_1_alg».proof.Proof.Gen.ReferenceIdeal.Read
import proofs.«426427_j36155034698037_1_alg».proof.Proof.Gen.Pre_finite_inputs
import proofs.«426427_j36155034698037_1_alg».proof.Proof.K.Run
import proofs.«426427_j36155034698037_1_alg».proof.Proof.KI.Run
import proofs.«426427_j36155034698037_1_alg».proof.Proof.Bridge
import Idealize.ShloMosaic.Adequacy
import Idealize.ShloMosaic.Init

noncomputable section

namespace Cert.Proof

open Idealize.ShloMosaic Idealize.SL.Sem

-- Each run names its result array; `Bridge.value_eq` identifies the two.
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.W15 m ρ c (Proc.devRef .tc Cert.KernelIdeal.main_v78),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v80_eq]
  obtain ⟨e0, e1, e2, e3, e4, e5, e6, e7, e8, e9, e10, e11⟩ := hagree c
  rw [e0, e1, e2, e3, e4, e5, e6, e7, e8, e9, e10, e11]
  exact (Cert.Bridge.value_eq m ρ c (hpre c)).symm

-- Frames: the two kernel programs' own frame theorems, and the reference's run weakened to its frame.
theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ, fun m ρ _ => Cert.KernelIdeal.Hand.frame m ρ,
    fun m ρ _ => (θ_run Cert.ReferenceIdeal.defs _ _).mono (fun _ h c => (h c).2)
      (Cert.ReferenceIdeal.Value.run (F := Ideal) m ρ),
    trivial, algebraic⟩

end Cert.Proof

end
